-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v113) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S256 : Shape := ⟨1, ![256]⟩
abbrev S128 : Shape := ⟨1, ![128]⟩
abbrev S64 : Shape := ⟨1, ![64]⟩
abbrev S256x1024 : Shape := ⟨2, ![256, 1024]⟩
abbrev S128x256 : Shape := ⟨2, ![128, 256]⟩
abbrev S64x128 : Shape := ⟨2, ![64, 128]⟩
abbrev S1000x64 : Shape := ⟨2, ![1000, 64]⟩
abbrev S1000 : Shape := ⟨1, ![1000]⟩
abbrev S1024x256 : Shape := ⟨2, ![1024, 256]⟩
abbrev S8192x256 : Shape := ⟨2, ![8192, 256]⟩
abbrev S1x256 : Shape := ⟨2, ![1, 256]⟩
abbrev S_ : Shape := ⟨0, ![]⟩
abbrev S256x128 : Shape := ⟨2, ![256, 128]⟩
abbrev S8192x128 : Shape := ⟨2, ![8192, 128]⟩
abbrev S1x128 : Shape := ⟨2, ![1, 128]⟩
abbrev S8192 : Shape := ⟨1, ![8192]⟩
abbrev S8192x1 : Shape := ⟨2, ![8192, 1]⟩
abbrev S128x64 : Shape := ⟨2, ![128, 64]⟩
abbrev S8192x64 : Shape := ⟨2, ![8192, 64]⟩

class Facts : Prop where
  transposes_S256x1024_S1024x256_1_0 : S256x1024.Transposes [1, 0] S1024x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S128x256_S256x128_1_0 : S128x256.Transposes [1, 0] S256x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  reducesTo_S8192x256_S8192_d1 : S8192x256.ReducesTo [1] S8192
  bcast_S8192x1_S8192x256_0_1 : S8192x1.BroadcastsInDim S8192x256 (![0, 1] : Fin 2 → Fin S8192x256.rank)
  reducesTo_S8192x128_S8192_d1 : S8192x128.ReducesTo [1] S8192
  bcast_S8192x1_S8192x128_0_1 : S8192x1.BroadcastsInDim S8192x128 (![0, 1] : Fin 2 → Fin S8192x128.rank)
  transposes_S64x128_S128x64_1_0 : S64x128.Transposes [1, 0] S128x64
  reducesTo_S8192x64_S8192_d1 : S8192x64.ReducesTo [1] S8192
  bcast_S_S8192x1024 : S_.BroadcastsInDim S8192x1024 (![] : Fin 0 → Fin S8192x1024.rank)
  reducesTo_S8192x1024_S_d0_1 : S8192x1024.ReducesTo [0, 1] S_
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_
  bcast_S_S256x1024 : S_.BroadcastsInDim S256x1024 (![] : Fin 0 → Fin S256x1024.rank)
  reducesTo_S256x1024_S_d0_1 : S256x1024.ReducesTo [0, 1] S_
  bcast_S_S128x256 : S_.BroadcastsInDim S128x256 (![] : Fin 0 → Fin S128x256.rank)
  reducesTo_S128x256_S_d0_1 : S128x256.ReducesTo [0, 1] S_
  bcast_S_S64x128 : S_.BroadcastsInDim S64x128 (![] : Fin 0 → Fin S64x128.rank)
  reducesTo_S64x128_S_d0_1 : S64x128.ReducesTo [0, 1] S_
  bcast_S_S1000x64 : S_.BroadcastsInDim S1000x64 (![] : Fin 0 → Fin S1000x64.rank)
  reducesTo_S1000x64_S_d0_1 : S1000x64.ReducesTo [0, 1] S_
  bcast_S_S1000 : S_.BroadcastsInDim S1000 (![] : Fin 0 → Fin S1000.rank)
  reducesTo_S1000_S_d0 : S1000.ReducesTo [0] S_
  bcast_S_S8192x1 : S_.BroadcastsInDim S8192x1 (![] : Fin 0 → Fin S8192x1.rank)
  reducesTo_S8192x1_S_d0_1 : S8192x1.ReducesTo [0, 1] S_
  dot_S8192x1024_S1024x256_S8192x256_1_0_0_1_n_n_wf : DotDims.WF S8192x1024 S1024x256 S8192x256 [1] [0] [0] [1] [] []
  dot_S8192x256_S256x128_S8192x128_1_0_0_1_n_n_wf : DotDims.WF S8192x256 S256x128 S8192x128 [1] [0] [0] [1] [] []
  dot_S8192x128_S128x64_S8192x64_1_0_0_1_n_n_wf : DotDims.WF S8192x128 S128x64 S8192x64 [1] [0] [0] [1] [] []

variable [Facts]

def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def fn_part8 {F : FTy → Type} [FloatOps F] (main_v47 : FVec F S8192x1 .f32) (main_v55 : FVec F S8192x1 .f32) (main_v145 : IVec S_ 1) : IVec S_ 1 :=
  let main_cst_44 : FVec F S_ .f32 := constant S_ .f32 0x00000000#32
  let main_v146 : FVec F S8192x1 .f32 := broadcastInDim S8192x1 ![] bcast_S_S8192x1 main_cst_44
  let main_v147 : IVec S8192x1 1 := cmpf .ogt main_v47 main_v146
  let main_c_45 : IVec S_ 1 := constantI S_ 1 1#1
  let main_v148 : IVec S_ 1 := (fun x v => Host.reduce IntOp.andi x v reducesTo_S8192x1_S_d0_1 h_S_) main_v147 main_c_45
  let main_v149 : IVec S_ 1 := andi main_v145 main_v148
  let main_cst_46 : FVec F S_ .f32 := constant S_ .f32 0x00000000#32
  let main_v150 : FVec F S8192x1 .f32 := broadcastInDim S8192x1 ![] bcast_S_S8192x1 main_cst_46
  let main_v151 : IVec S8192x1 1 := cmpf .ogt main_v55 main_v150
  let main_c_47 : IVec S_ 1 := constantI S_ 1 1#1
  let main_v152 : IVec S_ 1 := (fun x v => Host.reduce IntOp.andi x v reducesTo_S8192x1_S_d0_1 h_S_) main_v151 main_c_47
  let main_v153 : IVec S_ 1 := andi main_v149 main_v152
  main_v153

def fn_part7 {F : FTy → Type} [FloatOps F] (main_v23 : FVec F S8192x1 .f32) (main_v31 : FVec F S8192x1 .f32) (main_v35 : FVec F S8192x1 .f32) (main_v43 : FVec F S8192x1 .f32) (main_v47 : FVec F S8192x1 .f32) (main_v55 : FVec F S8192x1 .f32) (main_v129 : IVec S_ 1) : IVec S_ 1 :=
  let main_cst_36 : FVec F S_ .f32 := constant S_ .f32 0x00000000#32
  let main_v130 : FVec F S8192x1 .f32 := broadcastInDim S8192x1 ![] bcast_S_S8192x1 main_cst_36
  let main_v131 : IVec S8192x1 1 := cmpf .ogt main_v23 main_v130
  let main_c_37 : IVec S_ 1 := constantI S_ 1 1#1
  let main_v132 : IVec S_ 1 := (fun x v => Host.reduce IntOp.andi x v reducesTo_S8192x1_S_d0_1 h_S_) main_v131 main_c_37
  let main_v133 : IVec S_ 1 := andi main_v129 main_v132
  let main_cst_38 : FVec F S_ .f32 := constant S_ .f32 0x00000000#32
  let main_v134 : FVec F S8192x1 .f32 := broadcastInDim S8192x1 ![] bcast_S_S8192x1 main_cst_38
  let main_v135 : IVec S8192x1 1 := cmpf .ogt main_v31 main_v134
  let main_c_39 : IVec S_ 1 := constantI S_ 1 1#1
  let main_v136 : IVec S_ 1 := (fun x v => Host.reduce IntOp.andi x v reducesTo_S8192x1_S_d0_1 h_S_) main_v135 main_c_39
  let main_v137 : IVec S_ 1 := andi main_v133 main_v136
  let main_cst_40 : FVec F S_ .f32 := constant S_ .f32 0x00000000#32
  let main_v138 : FVec F S8192x1 .f32 := broadcastInDim S8192x1 ![] bcast_S_S8192x1 main_cst_40
  let main_v139 : IVec S8192x1 1 := cmpf .ogt main_v35 main_v138
  let main_c_41 : IVec S_ 1 := constantI S_ 1 1#1
  let main_v140 : IVec S_ 1 := (fun x v => Host.reduce IntOp.andi x v reducesTo_S8192x1_S_d0_1 h_S_) main_v139 main_c_41
  let main_v141 : IVec S_ 1 := andi main_v137 main_v140
  let main_cst_42 : FVec F S_ .f32 := constant S_ .f32 0x00000000#32
  let main_v142 : FVec F S8192x1 .f32 := broadcastInDim S8192x1 ![] bcast_S_S8192x1 main_cst_42
  let main_v143 : IVec S8192x1 1 := cmpf .ogt main_v43 main_v142
  let main_c_43 : IVec S_ 1 := constantI S_ 1 1#1
  let main_v144 : IVec S_ 1 := (fun x v => Host.reduce IntOp.andi x v reducesTo_S8192x1_S_d0_1 h_S_) main_v143 main_c_43
  let main_v145 : IVec S_ 1 := andi main_v141 main_v144
  fn_part8 (F := F) main_v47 main_v55 main_v145

def fn_part6 {F : FTy → Type} [FloatOps F] (main_arg12 : FVec F S256x1024 .f32) (main_arg13 : FVec F S128x256 .f32) (main_arg14 : FVec F S64x128 .f32) (main_v23 : FVec F S8192x1 .f32) (main_v31 : FVec F S8192x1 .f32) (main_v35 : FVec F S8192x1 .f32) (main_v43 : FVec F S8192x1 .f32) (main_v47 : FVec F S8192x1 .f32) (main_v55 : FVec F S8192x1 .f32) (main_v109 : IVec S_ 1) (main_v112 : IVec S1000 1) : IVec S_ 1 :=
  let main_c_29 : IVec S_ 1 := constantI S_ 1 1#1
  let main_v113 : IVec S_ 1 := (fun x v => Host.reduce IntOp.andi x v reducesTo_S1000_S_d0 h_S_) main_v112 main_c_29
  let main_v114 : IVec S_ 1 := andi main_v109 main_v113
  let main_v115 : FVec F S256x1024 .f32 := Host.absf main_arg12
  let main_cst_30 : FVec F S_ .f32 := constant S_ .f32 0x7F800000#32
  let main_v116 : FVec F S256x1024 .f32 := broadcastInDim S256x1024 ![] bcast_S_S256x1024 main_cst_30
  let main_v117 : IVec S256x1024 1 := cmpf .olt main_v115 main_v116
  let main_c_31 : IVec S_ 1 := constantI S_ 1 1#1
  let main_v118 : IVec S_ 1 := (fun x v => Host.reduce IntOp.andi x v reducesTo_S256x1024_S_d0_1 h_S_) main_v117 main_c_31
  let main_v119 : IVec S_ 1 := andi main_v114 main_v118
  let main_v120 : FVec F S128x256 .f32 := Host.absf main_arg13
  let main_cst_32 : FVec F S_ .f32 := constant S_ .f32 0x7F800000#32
  let main_v121 : FVec F S128x256 .f32 := broadcastInDim S128x256 ![] bcast_S_S128x256 main_cst_32
  let main_v122 : IVec S128x256 1 := cmpf .olt main_v120 main_v121
  let main_c_33 : IVec S_ 1 := constantI S_ 1 1#1
  let main_v123 : IVec S_ 1 := (fun x v => Host.reduce IntOp.andi x v reducesTo_S128x256_S_d0_1 h_S_) main_v122 main_c_33
  let main_v124 : IVec S_ 1 := andi main_v119 main_v123
  let main_v125 : FVec F S64x128 .f32 := Host.absf main_arg14
  let main_cst_34 : FVec F S_ .f32 := constant S_ .f32 0x7F800000#32
  let main_v126 : FVec F S64x128 .f32 := broadcastInDim S64x128 ![] bcast_S_S64x128 main_cst_34
  let main_v127 : IVec S64x128 1 := cmpf .olt main_v125 main_v126
  let main_c_35 : IVec S_ 1 := constantI S_ 1 1#1
  let main_v128 : IVec S_ 1 := (fun x v => Host.reduce IntOp.andi x v reducesTo_S64x128_S_d0_1 h_S_) main_v127 main_c_35
  let main_v129 : IVec S_ 1 := andi main_v124 main_v128
  fn_part7 (F := F) main_v23 main_v31 main_v35 main_v43 main_v47 main_v55 main_v129

def fn_part5 {F : FTy → Type} [FloatOps F] (main_arg9 : FVec F S64 .f32) (main_arg10 : FVec F S1000x64 .f32) (main_arg11 : FVec F S1000 .f32) (main_arg12 : FVec F S256x1024 .f32) (main_arg13 : FVec F S128x256 .f32) (main_arg14 : FVec F S64x128 .f32) (main_v23 : FVec F S8192x1 .f32) (main_v31 : FVec F S8192x1 .f32) (main_v35 : FVec F S8192x1 .f32) (main_v43 : FVec F S8192x1 .f32) (main_v47 : FVec F S8192x1 .f32) (main_v55 : FVec F S8192x1 .f32) (main_v94 : IVec S_ 1) (main_v95 : FVec F S64x128 .f32) : IVec S_ 1 :=
  let main_cst_22 : FVec F S_ .f32 := constant S_ .f32 0x7F800000#32
  let main_v96 : FVec F S64x128 .f32 := broadcastInDim S64x128 ![] bcast_S_S64x128 main_cst_22
  let main_v97 : IVec S64x128 1 := cmpf .olt main_v95 main_v96
  let main_c_23 : IVec S_ 1 := constantI S_ 1 1#1
  let main_v98 : IVec S_ 1 := (fun x v => Host.reduce IntOp.andi x v reducesTo_S64x128_S_d0_1 h_S_) main_v97 main_c_23
  let main_v99 : IVec S_ 1 := andi main_v94 main_v98
  let main_v100 : FVec F S64 .f32 := Host.absf main_arg9
  let main_cst_24 : FVec F S_ .f32 := constant S_ .f32 0x7F800000#32
  let main_v101 : FVec F S64 .f32 := broadcastInDim S64 ![] bcast_S_S64 main_cst_24
  let main_v102 : IVec S64 1 := cmpf .olt main_v100 main_v101
  let main_c_25 : IVec S_ 1 := constantI S_ 1 1#1
  let main_v103 : IVec S_ 1 := (fun x v => Host.reduce IntOp.andi x v reducesTo_S64_S_d0 h_S_) main_v102 main_c_25
  let main_v104 : IVec S_ 1 := andi main_v99 main_v103
  let main_v105 : FVec F S1000x64 .f32 := Host.absf main_arg10
  let main_cst_26 : FVec F S_ .f32 := constant S_ .f32 0x7F800000#32
  let main_v106 : FVec F S1000x64 .f32 := broadcastInDim S1000x64 ![] bcast_S_S1000x64 main_cst_26
  let main_v107 : IVec S1000x64 1 := cmpf .olt main_v105 main_v106
  let main_c_27 : IVec S_ 1 := constantI S_ 1 1#1
  let main_v108 : IVec S_ 1 := (fun x v => Host.reduce IntOp.andi x v reducesTo_S1000x64_S_d0_1 h_S_) main_v107 main_c_27
  let main_v109 : IVec S_ 1 := andi main_v104 main_v108
  let main_v110 : FVec F S1000 .f32 := Host.absf main_arg11
  let main_cst_28 : FVec F S_ .f32 := constant S_ .f32 0x7F800000#32
  let main_v111 : FVec F S1000 .f32 := broadcastInDim S1000 ![] bcast_S_S1000 main_cst_28
  let main_v112 : IVec S1000 1 := cmpf .olt main_v110 main_v111
  fn_part6 (F := F) main_arg12 main_arg13 main_arg14 main_v23 main_v31 main_v35 main_v43 main_v47 main_v55 main_v109 main_v112

def fn_part4 {F : FTy → Type} [FloatOps F] (main_arg5 : FVec F S256 .f32) (main_arg6 : FVec F S128x256 .f32) (main_arg7 : FVec F S128 .f32) (main_arg8 : FVec F S64x128 .f32) (main_arg9 : FVec F S64 .f32) (main_arg10 : FVec F S1000x64 .f32) (main_arg11 : FVec F S1000 .f32) (main_arg12 : FVec F S256x1024 .f32) (main_arg13 : FVec F S128x256 .f32) (main_arg14 : FVec F S64x128 .f32) (main_v23 : FVec F S8192x1 .f32) (main_v31 : FVec F S8192x1 .f32) (main_v35 : FVec F S8192x1 .f32) (main_v43 : FVec F S8192x1 .f32) (main_v47 : FVec F S8192x1 .f32) (main_v55 : FVec F S8192x1 .f32) (main_v74 : IVec S_ 1) (main_v77 : IVec S256x1024 1) (main_c_15 : IVec S_ 1) : IVec S_ 1 :=
  let main_v78 : IVec S_ 1 := (fun x v => Host.reduce IntOp.andi x v reducesTo_S256x1024_S_d0_1 h_S_) main_v77 main_c_15
  let main_v79 : IVec S_ 1 := andi main_v74 main_v78
  let main_v80 : FVec F S256 .f32 := Host.absf main_arg5
  let main_cst_16 : FVec F S_ .f32 := constant S_ .f32 0x7F800000#32
  let main_v81 : FVec F S256 .f32 := broadcastInDim S256 ![] bcast_S_S256 main_cst_16
  let main_v82 : IVec S256 1 := cmpf .olt main_v80 main_v81
  let main_c_17 : IVec S_ 1 := constantI S_ 1 1#1
  let main_v83 : IVec S_ 1 := (fun x v => Host.reduce IntOp.andi x v reducesTo_S256_S_d0 h_S_) main_v82 main_c_17
  let main_v84 : IVec S_ 1 := andi main_v79 main_v83
  let main_v85 : FVec F S128x256 .f32 := Host.absf main_arg6
  let main_cst_18 : FVec F S_ .f32 := constant S_ .f32 0x7F800000#32
  let main_v86 : FVec F S128x256 .f32 := broadcastInDim S128x256 ![] bcast_S_S128x256 main_cst_18
  let main_v87 : IVec S128x256 1 := cmpf .olt main_v85 main_v86
  let main_c_19 : IVec S_ 1 := constantI S_ 1 1#1
  let main_v88 : IVec S_ 1 := (fun x v => Host.reduce IntOp.andi x v reducesTo_S128x256_S_d0_1 h_S_) main_v87 main_c_19
  let main_v89 : IVec S_ 1 := andi main_v84 main_v88
  let main_v90 : FVec F S128 .f32 := Host.absf main_arg7
  let main_cst_20 : FVec F S_ .f32 := constant S_ .f32 0x7F800000#32
  let main_v91 : FVec F S128 .f32 := broadcastInDim S128 ![] bcast_S_S128 main_cst_20
  let main_v92 : IVec S128 1 := cmpf .olt main_v90 main_v91
  let main_c_21 : IVec S_ 1 := constantI S_ 1 1#1
  let main_v93 : IVec S_ 1 := (fun x v => Host.reduce IntOp.andi x v reducesTo_S128_S_d0 h_S_) main_v92 main_c_21
  let main_v94 : IVec S_ 1 := andi main_v89 main_v93
  let main_v95 : FVec F S64x128 .f32 := Host.absf main_arg8
  fn_part5 (F := F) main_arg9 main_arg10 main_arg11 main_arg12 main_arg13 main_arg14 main_v23 main_v31 main_v35 main_v43 main_v47 main_v55 main_v94 main_v95

def fn_part3 {F : FTy → Type} [FloatOps F] (main_arg2 : FVec F S128 .f32) (main_arg3 : FVec F S64 .f32) (main_arg4 : FVec F S256x1024 .f32) (main_arg5 : FVec F S256 .f32) (main_arg6 : FVec F S128x256 .f32) (main_arg7 : FVec F S128 .f32) (main_arg8 : FVec F S64x128 .f32) (main_arg9 : FVec F S64 .f32) (main_arg10 : FVec F S1000x64 .f32) (main_arg11 : FVec F S1000 .f32) (main_arg12 : FVec F S256x1024 .f32) (main_arg13 : FVec F S128x256 .f32) (main_arg14 : FVec F S64x128 .f32) (main_v23 : FVec F S8192x1 .f32) (main_v31 : FVec F S8192x1 .f32) (main_v35 : FVec F S8192x1 .f32) (main_v43 : FVec F S8192x1 .f32) (main_v47 : FVec F S8192x1 .f32) (main_v55 : FVec F S8192x1 .f32) (main_v59 : IVec S_ 1) (main_v60 : FVec F S256 .f32) (main_cst_8 : FVec F S_ .f32) : IVec S_ 1 :=
  let main_v61 : FVec F S256 .f32 := broadcastInDim S256 ![] bcast_S_S256 main_cst_8
  let main_v62 : IVec S256 1 := cmpf .olt main_v60 main_v61
  let main_c_9 : IVec S_ 1 := constantI S_ 1 1#1
  let main_v63 : IVec S_ 1 := (fun x v => Host.reduce IntOp.andi x v reducesTo_S256_S_d0 h_S_) main_v62 main_c_9
  let main_v64 : IVec S_ 1 := andi main_v59 main_v63
  let main_v65 : FVec F S128 .f32 := Host.absf main_arg2
  let main_cst_10 : FVec F S_ .f32 := constant S_ .f32 0x7F800000#32
  let main_v66 : FVec F S128 .f32 := broadcastInDim S128 ![] bcast_S_S128 main_cst_10
  let main_v67 : IVec S128 1 := cmpf .olt main_v65 main_v66
  let main_c_11 : IVec S_ 1 := constantI S_ 1 1#1
  let main_v68 : IVec S_ 1 := (fun x v => Host.reduce IntOp.andi x v reducesTo_S128_S_d0 h_S_) main_v67 main_c_11
  let main_v69 : IVec S_ 1 := andi main_v64 main_v68
  let main_v70 : FVec F S64 .f32 := Host.absf main_arg3
  let main_cst_12 : FVec F S_ .f32 := constant S_ .f32 0x7F800000#32
  let main_v71 : FVec F S64 .f32 := broadcastInDim S64 ![] bcast_S_S64 main_cst_12
  let main_v72 : IVec S64 1 := cmpf .olt main_v70 main_v71
  let main_c_13 : IVec S_ 1 := constantI S_ 1 1#1
  let main_v73 : IVec S_ 1 := (fun x v => Host.reduce IntOp.andi x v reducesTo_S64_S_d0 h_S_) main_v72 main_c_13
  let main_v74 : IVec S_ 1 := andi main_v69 main_v73
  let main_v75 : FVec F S256x1024 .f32 := Host.absf main_arg4
  let main_cst_14 : FVec F S_ .f32 := constant S_ .f32 0x7F800000#32
  let main_v76 : FVec F S256x1024 .f32 := broadcastInDim S256x1024 ![] bcast_S_S256x1024 main_cst_14
  let main_v77 : IVec S256x1024 1 := cmpf .olt main_v75 main_v76
  let main_c_15 : IVec S_ 1 := constantI S_ 1 1#1
  fn_part4 (F := F) main_arg5 main_arg6 main_arg7 main_arg8 main_arg9 main_arg10 main_arg11 main_arg12 main_arg13 main_arg14 main_v23 main_v31 main_v35 main_v43 main_v47 main_v55 main_v74 main_v77 main_c_15

def fn_part2 {F : FTy → Type} [FloatOps F] (main_arg0 : FVec F S8192x1024 .f32) (main_arg1 : FVec F S256 .f32) (main_arg2 : FVec F S128 .f32) (main_arg3 : FVec F S64 .f32) (main_arg4 : FVec F S256x1024 .f32) (main_arg5 : FVec F S256 .f32) (main_arg6 : FVec F S128x256 .f32) (main_arg7 : FVec F S128 .f32) (main_arg8 : FVec F S64x128 .f32) (main_arg9 : FVec F S64 .f32) (main_arg10 : FVec F S1000x64 .f32) (main_arg11 : FVec F S1000 .f32) (main_arg12 : FVec F S256x1024 .f32) (main_arg13 : FVec F S128x256 .f32) (main_arg14 : FVec F S64x128 .f32) (main_v19 : FVec F S8192x128 .f32) (main_v23 : FVec F S8192x1 .f32) (main_v31 : FVec F S8192x1 .f32) (main_v35 : FVec F S8192x1 .f32) (main_v41 : FVec F S8192 .f32) : IVec S_ 1 :=
  let main_v42 : FVec F S8192x1 .f32 := broadcastInDim S8192x1 ![0] bcast_S8192_S8192x1_0 main_v41
  let main_v43 : FVec F S8192x1 .f32 := Host.sqrt main_v42
  let main_v44 : FVec F S8192x128 .f32 := mulf main_v19 main_v19
  let main_cst_5 : FVec F S_ .f32 := constant S_ .f32 0x00000000#32
  let main_v45 : FVec F S8192 .f32 := (fun x v => Host.reduceAdd x v reducesTo_S8192x128_S8192_d1 h_S_) main_v44 main_cst_5
  let main_v46 : FVec F S8192x1 .f32 := broadcastInDim S8192x1 ![0] bcast_S8192_S8192x1_0 main_v45
  let main_v47 : FVec F S8192x1 .f32 := Host.sqrt main_v46
  let main_v48 : FVec F S8192x128 .f32 := broadcastInDim S8192x128 ![0, 1] bcast_S8192x1_S8192x128_0_1 main_v47
  let main_v49 : FVec F S8192x128 .f32 := Host.divf main_v19 main_v48
  let main_v50 : FVec F S128x64 .f32 := (transpose S128x64 [1, 0] · transposes_S64x128_S128x64_1_0) main_arg14
  let main_v51 : FVec F S8192x64 .f32 := (fun l r => Host.dotGeneral dot_S8192x128_S128x64_S8192x64_1_0_0_1_n_n none l r) main_v49 main_v50
  let main_v52 : FVec F S8192x64 .f32 := mulf main_v51 main_v51
  let main_cst_6 : FVec F S_ .f32 := constant S_ .f32 0x00000000#32
  let main_v53 : FVec F S8192 .f32 := (fun x v => Host.reduceAdd x v reducesTo_S8192x64_S8192_d1 h_S_) main_v52 main_cst_6
  let main_v54 : FVec F S8192x1 .f32 := broadcastInDim S8192x1 ![0] bcast_S8192_S8192x1_0 main_v53
  let main_v55 : FVec F S8192x1 .f32 := Host.sqrt main_v54
  let main_v56 : FVec F S8192x1024 .f32 := Host.absf main_arg0
  let main_cst_7 : FVec F S_ .f32 := constant S_ .f32 0x7F800000#32
  let main_v57 : FVec F S8192x1024 .f32 := broadcastInDim S8192x1024 ![] bcast_S_S8192x1024 main_cst_7
  let main_v58 : IVec S8192x1024 1 := cmpf .olt main_v56 main_v57
  let main_c : IVec S_ 1 := constantI S_ 1 1#1
  let main_v59 : IVec S_ 1 := (fun x v => Host.reduce IntOp.andi x v reducesTo_S8192x1024_S_d0_1 h_S_) main_v58 main_c
  let main_v60 : FVec F S256 .f32 := Host.absf main_arg1
  let main_cst_8 : FVec F S_ .f32 := constant S_ .f32 0x7F800000#32
  fn_part3 (F := F) main_arg2 main_arg3 main_arg4 main_arg5 main_arg6 main_arg7 main_arg8 main_arg9 main_arg10 main_arg11 main_arg12 main_arg13 main_arg14 main_v23 main_v31 main_v35 main_v43 main_v47 main_v55 main_v59 main_v60 main_cst_8

def fn_part1 {F : FTy → Type} [FloatOps F] (main_arg0 : FVec F S8192x1024 .f32) (main_arg1 : FVec F S256 .f32) (main_arg2 : FVec F S128 .f32) (main_arg3 : FVec F S64 .f32) (main_arg4 : FVec F S256x1024 .f32) (main_arg5 : FVec F S256 .f32) (main_arg6 : FVec F S128x256 .f32) (main_arg7 : FVec F S128 .f32) (main_arg8 : FVec F S64x128 .f32) (main_arg9 : FVec F S64 .f32) (main_arg10 : FVec F S1000x64 .f32) (main_arg11 : FVec F S1000 .f32) (main_arg12 : FVec F S256x1024 .f32) (main_arg13 : FVec F S128x256 .f32) (main_arg14 : FVec F S64x128 .f32) (main_v9 : FVec F S8192x256 .f32) (main_v19 : FVec F S8192x128 .f32) (main_v20 : FVec F S8192x1024 .f32) (main_cst_1 : FVec F S_ .f32) : IVec S_ 1 :=
  let main_v21 : FVec F S8192 .f32 := (fun x v => Host.reduceAdd x v reducesTo_S8192x1024_S8192_d1 h_S_) main_v20 main_cst_1
  let main_v22 : FVec F S8192x1 .f32 := broadcastInDim S8192x1 ![0] bcast_S8192_S8192x1_0 main_v21
  let main_v23 : FVec F S8192x1 .f32 := Host.sqrt main_v22
  let main_v24 : FVec F S8192x1024 .f32 := broadcastInDim S8192x1024 ![0, 1] bcast_S8192x1_S8192x1024_0_1 main_v23
  let main_v25 : FVec F S8192x1024 .f32 := Host.divf main_arg0 main_v24
  let main_v26 : FVec F S1024x256 .f32 := (transpose S1024x256 [1, 0] · transposes_S256x1024_S1024x256_1_0) main_arg12
  let main_v27 : FVec F S8192x256 .f32 := (fun l r => Host.dotGeneral dot_S8192x1024_S1024x256_S8192x256_1_0_0_1_n_n none l r) main_v25 main_v26
  let main_v28 : FVec F S8192x256 .f32 := mulf main_v27 main_v27
  let main_cst_2 : FVec F S_ .f32 := constant S_ .f32 0x00000000#32
  let main_v29 : FVec F S8192 .f32 := (fun x v => Host.reduceAdd x v reducesTo_S8192x256_S8192_d1 h_S_) main_v28 main_cst_2
  let main_v30 : FVec F S8192x1 .f32 := broadcastInDim S8192x1 ![0] bcast_S8192_S8192x1_0 main_v29
  let main_v31 : FVec F S8192x1 .f32 := Host.sqrt main_v30
  let main_v32 : FVec F S8192x256 .f32 := mulf main_v9 main_v9
  let main_cst_3 : FVec F S_ .f32 := constant S_ .f32 0x00000000#32
  let main_v33 : FVec F S8192 .f32 := (fun x v => Host.reduceAdd x v reducesTo_S8192x256_S8192_d1 h_S_) main_v32 main_cst_3
  let main_v34 : FVec F S8192x1 .f32 := broadcastInDim S8192x1 ![0] bcast_S8192_S8192x1_0 main_v33
  let main_v35 : FVec F S8192x1 .f32 := Host.sqrt main_v34
  let main_v36 : FVec F S8192x256 .f32 := broadcastInDim S8192x256 ![0, 1] bcast_S8192x1_S8192x256_0_1 main_v35
  let main_v37 : FVec F S8192x256 .f32 := Host.divf main_v9 main_v36
  let main_v38 : FVec F S256x128 .f32 := (transpose S256x128 [1, 0] · transposes_S128x256_S256x128_1_0) main_arg13
  let main_v39 : FVec F S8192x128 .f32 := (fun l r => Host.dotGeneral dot_S8192x256_S256x128_S8192x128_1_0_0_1_n_n none l r) main_v37 main_v38
  let main_v40 : FVec F S8192x128 .f32 := mulf main_v39 main_v39
  let main_cst_4 : FVec F S_ .f32 := constant S_ .f32 0x00000000#32
  let main_v41 : FVec F S8192 .f32 := (fun x v => Host.reduceAdd x v reducesTo_S8192x128_S8192_d1 h_S_) main_v40 main_cst_4
  fn_part2 (F := F) main_arg0 main_arg1 main_arg2 main_arg3 main_arg4 main_arg5 main_arg6 main_arg7 main_arg8 main_arg9 main_arg10 main_arg11 main_arg12 main_arg13 main_arg14 main_v19 main_v23 main_v31 main_v35 main_v41

def fn {F : FTy → Type} [FloatOps F] (main_arg0 : FVec F S8192x1024 .f32) (main_arg1 : FVec F S256 .f32) (main_arg2 : FVec F S128 .f32) (main_arg3 : FVec F S64 .f32) (main_arg4 : FVec F S256x1024 .f32) (main_arg5 : FVec F S256 .f32) (main_arg6 : FVec F S128x256 .f32) (main_arg7 : FVec F S128 .f32) (main_arg8 : FVec F S64x128 .f32) (main_arg9 : FVec F S64 .f32) (main_arg10 : FVec F S1000x64 .f32) (main_arg11 : FVec F S1000 .f32) (main_arg12 : FVec F S256x1024 .f32) (main_arg13 : FVec F S128x256 .f32) (main_arg14 : FVec F S64x128 .f32) : IVec S_ 1 :=
  let main_v0 : FVec F S1024x256 .f32 := (transpose S1024x256 [1, 0] · transposes_S256x1024_S1024x256_1_0) main_arg4
  let main_v1 : FVec F S8192x256 .f32 := (fun l r => Host.dotGeneral dot_S8192x1024_S1024x256_S8192x256_1_0_0_1_n_n none l r) main_arg0 main_v0
  let main_v2 : FVec F S1x256 .f32 := broadcastInDim S1x256 ![1] bcast_S256_S1x256_1 main_arg5
  let main_v3 : FVec F S8192x256 .f32 := broadcastInDim S8192x256 ![0, 1] bcast_S1x256_S8192x256_0_1 main_v2
  let main_v4 : FVec F S8192x256 .f32 := addf main_v1 main_v3
  let main_cst : FVec F S_ .f32 := constant S_ .f32 0x00000000#32
  let main_v5 : FVec F S8192x256 .f32 := broadcastInDim S8192x256 ![] bcast_S_S8192x256 main_cst
  let main_v6 : FVec F S8192x256 .f32 := maximumf main_v4 main_v5
  let main_v7 : FVec F S1x256 .f32 := broadcastInDim S1x256 ![1] bcast_S256_S1x256_1 main_arg1
  let main_v8 : FVec F S8192x256 .f32 := broadcastInDim S8192x256 ![0, 1] bcast_S1x256_S8192x256_0_1 main_v7
  let main_v9 : FVec F S8192x256 .f32 := mulf main_v6 main_v8
  let main_v10 : FVec F S256x128 .f32 := (transpose S256x128 [1, 0] · transposes_S128x256_S256x128_1_0) main_arg6
  let main_v11 : FVec F S8192x128 .f32 := (fun l r => Host.dotGeneral dot_S8192x256_S256x128_S8192x128_1_0_0_1_n_n none l r) main_v9 main_v10
  let main_v12 : FVec F S1x128 .f32 := broadcastInDim S1x128 ![1] bcast_S128_S1x128_1 main_arg7
  let main_v13 : FVec F S8192x128 .f32 := broadcastInDim S8192x128 ![0, 1] bcast_S1x128_S8192x128_0_1 main_v12
  let main_v14 : FVec F S8192x128 .f32 := addf main_v11 main_v13
  let main_cst_0 : FVec F S_ .f32 := constant S_ .f32 0x00000000#32
  let main_v15 : FVec F S8192x128 .f32 := broadcastInDim S8192x128 ![] bcast_S_S8192x128 main_cst_0
  let main_v16 : FVec F S8192x128 .f32 := maximumf main_v14 main_v15
  let main_v17 : FVec F S1x128 .f32 := broadcastInDim S1x128 ![1] bcast_S128_S1x128_1 main_arg2
  let main_v18 : FVec F S8192x128 .f32 := broadcastInDim S8192x128 ![0, 1] bcast_S1x128_S8192x128_0_1 main_v17
  let main_v19 : FVec F S8192x128 .f32 := mulf main_v16 main_v18
  let main_v20 : FVec F S8192x1024 .f32 := mulf main_arg0 main_arg0
  let main_cst_1 : FVec F S_ .f32 := constant S_ .f32 0x00000000#32
  fn_part1 (F := F) main_arg0 main_arg1 main_arg2 main_arg3 main_arg4 main_arg5 main_arg6 main_arg7 main_arg8 main_arg9 main_arg10 main_arg11 main_arg12 main_arg13 main_arg14 main_v9 main_v19 main_v20 main_cst_1
-- ==== Kernel.lean ====
abbrev S8192x1024 : Shape := ⟨2, ![8192, 1024]⟩
abbrev S256 : Shape := ⟨1, ![256]⟩
abbrev S128 : Shape := ⟨1, ![128]⟩
abbrev S64 : Shape := ⟨1, ![64]⟩
abbrev S256x1024 : Shape := ⟨2, ![256, 1024]⟩
abbrev S128x256 : Shape := ⟨2, ![128, 256]⟩
abbrev S64x128 : Shape := ⟨2, ![64, 128]⟩
abbrev S1000x64 : Shape := ⟨2, ![1000, 64]⟩
abbrev S1000 : Shape := ⟨1, ![1000]⟩
abbrev S_ : Shape := ⟨0, ![]⟩
abbrev S1x256 : Shape := ⟨2, ![1, 256]⟩
abbrev S8192x256 : Shape := ⟨2, ![8192, 256]⟩
abbrev S512x1024 : Shape := ⟨2, ![512, 1024]⟩
abbrev S512x256 : Shape := ⟨2, ![512, 256]⟩
abbrev S1x1 : Shape := ⟨2, ![1, 1]⟩
abbrev S1024x256 : Shape := ⟨2, ![1024, 256]⟩
abbrev S512 : Shape := ⟨1, ![512]⟩
abbrev S512x1 : Shape := ⟨2, ![512, 1]⟩
abbrev S1 : Shape := ⟨1, ![1]⟩
abbrev S1x128 : Shape := ⟨2, ![1, 128]⟩
abbrev S8192x128 : Shape := ⟨2, ![8192, 128]⟩
abbrev S512x128 : Shape := ⟨2, ![512, 128]⟩
abbrev S256x128 : Shape := ⟨2, ![256, 128]⟩
abbrev S1x64 : Shape := ⟨2, ![1, 64]⟩
abbrev S8192x64 : Shape := ⟨2, ![8192, 64]⟩
abbrev S512x64 : Shape := ⟨2, ![512, 64]⟩
abbrev S128x64 : Shape := ⟨2, ![128, 64]⟩
abbrev S1x1000 : Shape := ⟨2, ![1, 1000]⟩
abbrev S8192x1000 : Shape := ⟨2, ![8192, 1000]⟩
abbrev S1024x64 : Shape := ⟨2, ![1024, 64]⟩
abbrev S1024x1000 : Shape := ⟨2, ![1024, 1000]⟩
abbrev S64x1000 : Shape := ⟨2, ![64, 1000]⟩

abbrev nBuf : Space → Nat
  | .hbm => 41
  | .vmem => 42
  | .smem => 0
  | _ => 0

abbrev bufTy : (tb : Table) → Fin (tcTables nBuf tb) → BufTy
  | .hbm, ⟨0, _⟩ => ⟨S8192x1024, .f32⟩
  | .hbm, ⟨1, _⟩ => ⟨S256, .f32⟩
  | .hbm, ⟨2, _⟩ => ⟨S128, .f32⟩
  | .hbm, ⟨3, _⟩ => ⟨S64, .f32⟩
  | .hbm, ⟨4, _⟩ => ⟨S256x1024, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S64x128, .f32⟩
  | .hbm, ⟨9, _⟩ => ⟨S64, .f32⟩
  | .hbm, ⟨10, _⟩ => ⟨S1000x64, .f32⟩
  | .hbm, ⟨11, _⟩ => ⟨S1000, .f32⟩
  | .hbm, ⟨12, _⟩ => ⟨S256x1024, .f32⟩
  | .hbm, ⟨13, _⟩ => ⟨S128x256, .f32⟩
  | .hbm, ⟨14, _⟩ => ⟨S64x128, .f32⟩
  | .hbm, ⟨15, _⟩ => ⟨S_, .f32⟩
  | .hbm, ⟨16, _⟩ => ⟨S256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S8192x256, .f32⟩
  | .hbm, ⟨21, _⟩ => ⟨S1x256, .f32⟩
  | .hbm, ⟨22, _⟩ => ⟨S256, .f32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S8192x128, .f32⟩
  | .hbm, ⟨29, _⟩ => ⟨S1x128, .f32⟩
  | .hbm, ⟨30, _⟩ => ⟨S128, .f32⟩
  | .hbm, ⟨31, _⟩ => ⟨S_, .f32⟩
  | .hbm, ⟨32, _⟩ => ⟨S64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S8192x64, .f32⟩
  | .hbm, ⟨37, _⟩ => ⟨S1x64, .f32⟩
  | .hbm, ⟨38, _⟩ => ⟨S64, .f32⟩
  | .hbm, ⟨39, _⟩ => ⟨S1x1000, .f32⟩
  | .hbm, ⟨40, _⟩ => ⟨S8192x1000, .f32⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S1x256, .f32⟩
  | .local _ .vmem, ⟨4, _⟩ => ⟨S1x256, .f32⟩
  | .local _ .vmem, ⟨5, _⟩ => ⟨S256x1024, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | .local _ .vmem, ⟨9, _⟩ => ⟨S1x256, .f32⟩
  | .local _ .vmem, ⟨10, _⟩ => ⟨S1x1, .f32⟩
  | .local _ .vmem, ⟨11, _⟩ => ⟨S1x256, .f32⟩
  | .local _ .vmem, ⟨12, _⟩ => ⟨S512x256, .f32⟩
  | .local _ .vmem, ⟨13, _⟩ => ⟨S512x256, .f32⟩
  | .local _ .vmem, ⟨14, _⟩ => ⟨S128x256, .f32⟩
  | .local _ .vmem, ⟨15, _⟩ => ⟨S1x128, .f32⟩
  | .local _ .vmem, ⟨16, _⟩ => ⟨S1x128, .f32⟩
  | .local _ .vmem, ⟨17, _⟩ => ⟨S128x256, .f32⟩
  | .local _ .vmem, ⟨18, _⟩ => ⟨S1x128, .f32⟩
  | .local _ .vmem, ⟨19, _⟩ => ⟨S512x128, .f32⟩
  | .local _ .vmem, ⟨20, _⟩ => ⟨S512x128, .f32⟩
  | .local _ .vmem, ⟨21, _⟩ => ⟨S1x128, .f32⟩
  | .local _ .vmem, ⟨22, _⟩ => ⟨S1x1, .f32⟩
  | .local _ .vmem, ⟨23, _⟩ => ⟨S1x128, .f32⟩
  | .local _ .vmem, ⟨24, _⟩ => ⟨S512x128, .f32⟩
  | .local _ .vmem, ⟨25, _⟩ => ⟨S512x128, .f32⟩
  | .local _ .vmem, ⟨26, _⟩ => ⟨S64x128, .f32⟩
  | .local _ .vmem, ⟨27, _⟩ => ⟨S1x64, .f32⟩
  | .local _ .vmem, ⟨28, _⟩ => ⟨S1x64, .f32⟩
  | .local _ .vmem, ⟨29, _⟩ => ⟨S64x128, .f32⟩
  | .local _ .vmem, ⟨30, _⟩ => ⟨S1x64, .f32⟩
  | .local _ .vmem, ⟨31, _⟩ => ⟨S512x64, .f32⟩
  | .local _ .vmem, ⟨32, _⟩ => ⟨S512x64, .f32⟩
  | .local _ .vmem, ⟨33, _⟩ => ⟨S1x64, .f32⟩
  | .local _ .vmem, ⟨34, _⟩ => ⟨S1x1, .f32⟩
  | .local _ .vmem, ⟨35, _⟩ => ⟨S1x64, .f32⟩
  | .local _ .vmem, ⟨36, _⟩ => ⟨S1024x64, .f32⟩
  | .local _ .vmem, ⟨37, _⟩ => ⟨S1024x64, .f32⟩
  | .local _ .vmem, ⟨38, _⟩ => ⟨S1000x64, .f32⟩
  | .local _ .vmem, ⟨39, _⟩ => ⟨S1x1000, .f32⟩
  | .local _ .vmem, ⟨40, _⟩ => ⟨S1024x1000, .f32⟩
  | .local _ .vmem, ⟨41, _⟩ => ⟨S1024x1000, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16_0 : Ref sig .tc := ⟨.hbm, 36, rfl⟩
abbrev main_v16_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v56 : BitVec 1 := Scalar.cmpi .eq arg0 c15_i32
  let v57 : BitVec 32 := Scalar.extui v56
  let c0_i32_30 : BitVec 32 := 0#32
  let v58 : BitVec 1 := Scalar.cmpi .ne v57 c0_i32_30
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v57 : BitVec 1 := Scalar.cmpi .eq arg0 c15_i32
  let v58 : BitVec 32 := Scalar.extui v57
  let c0_i32_30 : BitVec 32 := 0#32
  let v59 : BitVec 1 := Scalar.cmpi .ne v58 c0_i32_30
  v59

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![16], ![false]⟩

def k2_cond2 (i : grid2.Coords) : BitVec 1 :=
  let arg0 : BitVec 32 := BitVec.ofNat 32 (i 0).val
  let c15_i32 : BitVec 32 := 15#32
  let v57 : BitVec 1 := Scalar.cmpi .eq arg0 c15_i32
  let v58 : BitVec 32 := Scalar.extui v57
  let c0_i32_30 : BitVec 32 := 0#32
  let v59 : BitVec 1 := Scalar.cmpi .ne v58 c0_i32_30
  v59

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1000 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x1000 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  reducesTo_S256x1024_S256_d1 : S256x1024.ReducesTo [1] S256
  h_S_ : 0 < S_.numel
  shapeCasts_S256_S1x256 : S256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S512x1024_S512x1024_0_0 : ∀ a, (![0, 0] : Fin 2 → Nat) a + S512x1024.size a ≤ S512x1024.size a
  h_S512x1024 : 0 < S512x1024.numel
  inb_S256x1024_S256x1024_0_0 : ∀ a, (![0, 0] : Fin 2 → Nat) a + S256x1024.size a ≤ S256x1024.size a
  h_S256x1024 : 0 < S256x1024.numel
  transposes_S256x1024_p1_0_S1024x256 : S256x1024.Transposes [1, 0] S1024x256
  broadcasts_S1x256_S512x256 : S1x256.Broadcasts S512x256
  inb_S512x256_S512x256_0_0 : ∀ a, (![0, 0] : Fin 2 → Nat) a + S512x256.size a ≤ S512x256.size a
  h_S512x256 : 0 < S512x256.numel
  reduces_S512x1024_S512 : S512x1024.Reduces [1] S512
  shapeCasts_S512_S512x1 : S512.ShapeCasts S512x1
  broadcasts_S512x1_S512x1024 : S512x1.Broadcasts S512x1024
  reduces_S512x256_S512 : S512x256.Reduces [1] S512
  broadcasts_S512x1_S512x256 : S512x1.Broadcasts S512x256
  reduces_S512x1_S1 : S512x1.Reduces [0] S1
  shapeCasts_S1_S1x1 : S1.ShapeCasts S1x1
  reduces_S512x256_S256 : S512x256.Reduces [0] S256
  broadcasts_S1x1_S1x256 : S1x1.Broadcasts S1x256
  reduces_S1x256_S1 : S1x256.Reduces [1] S1
  shapeCasts_S1x256_S256 : S1x256.ShapeCasts S256
  reducesTo_S128x256_S128_d1 : S128x256.ReducesTo [1] S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S512x256_S512x256 : S512x256.ShapeCasts S512x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  broadcasts_S1x128_S512x128 : S1x128.Broadcasts S512x128
  inb_S512x128_S512x128_0_0 : ∀ a, (![0, 0] : Fin 2 → Nat) a + S512x128.size a ≤ S512x128.size a
  h_S512x128 : 0 < S512x128.numel
  reduces_S512x128_S512 : S512x128.Reduces [1] S512
  broadcasts_S512x1_S512x128 : S512x1.Broadcasts S512x128
  reduces_S512x128_S128 : S512x128.Reduces [0] S128
  broadcasts_S1x1_S1x128 : S1x1.Broadcasts S1x128
  reduces_S1x128_S1 : S1x128.Reduces [1] S1
  shapeCasts_S1x128_S128 : S1x128.ShapeCasts S128
  reducesTo_S64x128_S64_d1 : S64x128.ReducesTo [1] S64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S512x128_S512x128 : S512x128.ShapeCasts S512x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  broadcasts_S1x64_S512x64 : S1x64.Broadcasts S512x64
  inb_S512x64_S512x64_0_0 : ∀ a, (![0, 0] : Fin 2 → Nat) a + S512x64.size a ≤ S512x64.size a
  h_S512x64 : 0 < S512x64.numel
  reduces_S512x64_S512 : S512x64.Reduces [1] S512
  broadcasts_S512x1_S512x64 : S512x1.Broadcasts S512x64
  reduces_S512x64_S64 : S512x64.Reduces [0] S64
  broadcasts_S1x1_S1x64 : S1x1.Broadcasts S1x64
  reduces_S1x64_S1 : S1x64.Reduces [1] S1
  shapeCasts_S1x64_S64 : S1x64.ShapeCasts S64
  shapeCasts_S1000_S1x1000 : S1000.ShapeCasts S1x1000
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1000x64_S1000x64_0_0 : ∀ a, (![0, 0] : Fin 2 → Nat) a + S1000x64.size a ≤ S1000x64.size a
  h_S1000x64 : 0 < S1000x64.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  transposes_S1000x64_p1_0_S64x1000 : S1000x64.Transposes [1, 0] S64x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  dot_S512x1024_S1024x256_S512x256_1_0_0_1_n_n_wf : DotDims.WF S512x1024 S1024x256 S512x256 [1] [0] [0] [1] [] []
  dot_S512x256_S256x128_S512x128_1_0_0_1_n_n_wf : DotDims.WF S512x256 S256x128 S512x128 [1] [0] [0] [1] [] []
  dot_S512x128_S128x64_S512x64_1_0_0_1_n_n_wf : DotDims.WF S512x128 S128x64 S512x64 [1] [0] [0] [1] [] []
  dot_S1024x64_S64x1000_S1024x1000_1_0_0_1_n_n_wf : DotDims.WF S1024x64 S64x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S8192x256.size a
  hwx0_6 : ∀ i : grid0.Coords, EltTy.bits .f32 = 32 ∨ (Rect.block (s := S8192x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .f32 = 32 ∨ (Rect.block (s := S8192x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x128.size a ≤ S8192x128.size a
  hwx1_6 : ∀ i : grid1.Coords, EltTy.bits .f32 = 32 ∨ (Rect.block (s := S8192x128) S512x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S8192x128.size a
  hwx2_0 : ∀ i : grid2.Coords, EltTy.bits .f32 = 32 ∨ (Rect.block (s := S8192x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x64.size a ≤ S8192x64.size a
  hwx2_6 : ∀ i : grid2.Coords, EltTy.bits .f32 = 32 ∨ (Rect.block (s := S8192x64) S512x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S8192x64.size a
  hwx3_0 : ∀ i : grid3.Coords, EltTy.bits .f32 = 32 ∨ (Rect.block (s := S8192x64) S1024x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1000x64.size a ≤ S1000x64.size a
  hwx3_1 : ∀ i : grid3.Coords, EltTy.bits .f32 = 32 ∨ (Rect.block (s := S1000x64) S1000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1000.size a ≤ S1x1000.size a
  hwx3_2 : ∀ i : grid3.Coords, EltTy.bits .f32 = 32 ∨ (Rect.block (s := S1x1000) S1x1000.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1000.size a ≤ S8192x1000.size a
  hwx3_3 : ∀ i : grid3.Coords, EltTy.bits .f32 = 32 ∨ (Rect.block (s := S8192x1000) S1024x1000.size (cc3_transform_3 i) (hinb3_3 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S1024x64_S64x1000_S1024x1000_1_0_0_1_n_n : DotDims S1024x64 S64x1000 S1024x1000 where
  lhsContracting := [1]
  rhsContracting := [0]
  lhsNonContracting := [0]
  rhsNonContracting := [1]
  lhsBatch := []
  rhsBatch := []
  wf := dot_S1024x64_S64x1000_S1024x1000_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v4_0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10_0) S512x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v10_1) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v10_0) S512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16_0) S512x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v16_1) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v16_0) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S1000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v18) S1x1000.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1024x1000.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8192x1024 : Shape := ⟨2, ![8192, 1024]⟩
abbrev S256 : Shape := ⟨1, ![256]⟩
abbrev S128 : Shape := ⟨1, ![128]⟩
abbrev S64 : Shape := ⟨1, ![64]⟩
abbrev S256x1024 : Shape := ⟨2, ![256, 1024]⟩
abbrev S128x256 : Shape := ⟨2, ![128, 256]⟩
abbrev S64x128 : Shape := ⟨2, ![64, 128]⟩
abbrev S1000x64 : Shape := ⟨2, ![1000, 64]⟩
abbrev S1000 : Shape := ⟨1, ![1000]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S8192x256 : Shape := ⟨2, ![8192, 256]⟩
abbrev S1x256 : Shape := ⟨2, ![1, 256]⟩
abbrev S256x128 : Shape := ⟨2, ![256, 128]⟩
abbrev S8192x128 : Shape := ⟨2, ![8192, 128]⟩
abbrev S1x128 : Shape := ⟨2, ![1, 128]⟩
abbrev S128x64 : Shape := ⟨2, ![128, 64]⟩
abbrev S8192x64 : Shape := ⟨2, ![8192, 64]⟩
abbrev S1x64 : Shape := ⟨2, ![1, 64]⟩
abbrev S64x1000 : Shape := ⟨2, ![64, 1000]⟩
abbrev S8192x1000 : Shape := ⟨2, ![8192, 1000]⟩
abbrev S1x1000 : Shape := ⟨2, ![1, 1000]⟩

abbrev nBuf : Space → Nat
  | .hbm => 215
  | .vmem => 0
  | .smem => 0
  | _ => 0

abbrev hbmTy0_0 (i : Nat) : BufTy := match i % 128 with
  | 0 => ⟨S8192x1024, .f32⟩
  | 1 => ⟨S256, .f32⟩
  | 2 => ⟨S128, .f32⟩
  | 3 => ⟨S64, .f32⟩
  | 4 => ⟨S256x1024, .f32⟩
  | 5 => ⟨S256, .f32⟩
  | 6 => ⟨S128x256, .f32⟩
  | 7 => ⟨S128, .f32⟩
  | 8 => ⟨S64x128, .f32⟩
  | 9 => ⟨S64, .f32⟩
  | 10 => ⟨S1000x64, .f32⟩
  | 11 => ⟨S1000, .f32⟩
  | 12 => ⟨S256x1024, .f32⟩
  | 13 => ⟨S128x256, .f32⟩
  | 14 => ⟨S64x128, .f32⟩
  | 15 => ⟨S8192x1024, .f32⟩
  | 16 => ⟨S_, .f32⟩
  | 17 => ⟨S8192, .f32⟩
  | 18 => ⟨S8192x1, .f32⟩
  | 19 => ⟨S8192x1, .f32⟩
  | 20 => ⟨S8192x1024, .f32⟩
  | 21 => ⟨S8192x1024, .f32⟩
  | 22 => ⟨S1024x256, .f32⟩
  | 23 => ⟨S8192x256, .f32⟩
  | 24 => ⟨S8192x256, .f32⟩
  | 25 => ⟨S_, .f32⟩
  | 26 => ⟨S8192, .f32⟩
  | 27 => ⟨S8192x1, .f32⟩
  | 28 => ⟨S8192x1, .f32⟩
  | 29 => ⟨S8192x256, .f32⟩
  | 30 => ⟨S8192x256, .f32⟩
  | 31 => ⟨S8192x256, .f32⟩
  | 32 => ⟨S_, .f32⟩
  | 33 => ⟨S_, .f32⟩
  | 34 => ⟨S_, .f32⟩
  | 35 => ⟨S_, .f32⟩
  | 36 => ⟨S256x1024, .f32⟩
  | 37 => ⟨S256x1024, .f32⟩
  | 38 => ⟨S256x1024, .f32⟩
  | 39 => ⟨S256x1024, .f32⟩
  | 40 => ⟨S_, .f32⟩
  | 41 => ⟨S256x1024, .f32⟩
  | 42 => ⟨S256x1024, .f32⟩
  | 43 => ⟨S256x1024, .f32⟩
  | 44 => ⟨S_, .f32⟩
  | 45 => ⟨S256, .f32⟩
  | 46 => ⟨S_, .f32⟩
  | 47 => ⟨S_, .f32⟩
  | 48 => ⟨S256, .f32⟩
  | 49 => ⟨S256, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S256, .f32⟩
  | 58 => ⟨S256, .f32⟩
  | 59 => ⟨S_, .f32⟩
  | 60 => ⟨S256, .f32⟩
  | 61 => ⟨S256, .i1⟩
  | 62 => ⟨S_, .f32⟩
  | 63 => ⟨S_, .f32⟩
  | 64 => ⟨S256, .f32⟩
  | 65 => ⟨S256, .f32⟩
  | 66 => ⟨S256, .f32⟩
  | 67 => ⟨S256, .f32⟩
  | 68 => ⟨S1024x256, .f32⟩
  | 69 => ⟨S8192x256, .f32⟩
  | 70 => ⟨S1x256, .f32⟩
  | 71 => ⟨S8192x256, .f32⟩
  | 72 => ⟨S8192x256, .f32⟩
  | 73 => ⟨S_, .f32⟩
  | 74 => ⟨S8192x256, .f32⟩
  | 75 => ⟨S8192x256, .f32⟩
  | 76 => ⟨S1x256, .f32⟩
  | 77 => ⟨S8192x256, .f32⟩
  | 78 => ⟨S8192x256, .f32⟩
  | 79 => ⟨S8192x256, .f32⟩
  | 80 => ⟨S_, .f32⟩
  | 81 => ⟨S8192, .f32⟩
  | 82 => ⟨S8192x1, .f32⟩
  | 83 => ⟨S8192x1, .f32⟩
  | 84 => ⟨S8192x256, .f32⟩
  | 85 => ⟨S8192x256, .f32⟩
  | 86 => ⟨S256x128, .f32⟩
  | 87 => ⟨S8192x128, .f32⟩
  | 88 => ⟨S8192x128, .f32⟩
  | 89 => ⟨S_, .f32⟩
  | 90 => ⟨S8192, .f32⟩
  | 91 => ⟨S8192x1, .f32⟩
  | 92 => ⟨S8192x1, .f32⟩
  | 93 => ⟨S8192x128, .f32⟩
  | 94 => ⟨S8192x128, .f32⟩
  | 95 => ⟨S8192x128, .f32⟩
  | 96 => ⟨S_, .f32⟩
  | 97 => ⟨S_, .f32⟩
  | 98 => ⟨S_, .f32⟩
  | 99 => ⟨S_, .f32⟩
  | 100 => ⟨S128x256, .f32⟩
  | 101 => ⟨S128x256, .f32⟩
  | 102 => ⟨S128x256, .f32⟩
  | 103 => ⟨S128x256, .f32⟩
  | 104 => ⟨S_, .f32⟩
  | 105 => ⟨S128x256, .f32⟩
  | 106 => ⟨S128x256, .f32⟩
  | 107 => ⟨S128x256, .f32⟩
  | 108 => ⟨S_, .f32⟩
  | 109 => ⟨S128, .f32⟩
  | 110 => ⟨S_, .f32⟩
  | 111 => ⟨S_, .f32⟩
  | 112 => ⟨S128, .f32⟩
  | 113 => ⟨S128, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S128, .f32⟩
  | 122 => ⟨S128, .f32⟩
  | 123 => ⟨S_, .f32⟩
  | 124 => ⟨S128, .f32⟩
  | 125 => ⟨S128, .i1⟩
  | 126 => ⟨S_, .f32⟩
  | 127 => ⟨S_, .f32⟩
  | _ => ⟨S8192x1024, .f32⟩

abbrev hbmTy0_1 (i : Nat) : BufTy := match i % 128 with
  | 0 => ⟨S128, .f32⟩
  | 1 => ⟨S128, .f32⟩
  | 2 => ⟨S128, .f32⟩
  | 3 => ⟨S128, .f32⟩
  | 4 => ⟨S256x128, .f32⟩
  | 5 => ⟨S8192x128, .f32⟩
  | 6 => ⟨S1x128, .f32⟩
  | 7 => ⟨S8192x128, .f32⟩
  | 8 => ⟨S8192x128, .f32⟩
  | 9 => ⟨S_, .f32⟩
  | 10 => ⟨S8192x128, .f32⟩
  | 11 => ⟨S8192x128, .f32⟩
  | 12 => ⟨S1x128, .f32⟩
  | 13 => ⟨S8192x128, .f32⟩
  | 14 => ⟨S8192x128, .f32⟩
  | 15 => ⟨S8192x128, .f32⟩
  | 16 => ⟨S_, .f32⟩
  | 17 => ⟨S8192, .f32⟩
  | 18 => ⟨S8192x1, .f32⟩
  | 19 => ⟨S8192x1, .f32⟩
  | 20 => ⟨S8192x128, .f32⟩
  | 21 => ⟨S8192x128, .f32⟩
  | 22 => ⟨S128x64, .f32⟩
  | 23 => ⟨S8192x64, .f32⟩
  | 24 => ⟨S8192x64, .f32⟩
  | 25 => ⟨S_, .f32⟩
  | 26 => ⟨S8192, .f32⟩
  | 27 => ⟨S8192x1, .f32⟩
  | 28 => ⟨S8192x1, .f32⟩
  | 29 => ⟨S8192x64, .f32⟩
  | 30 => ⟨S8192x64, .f32⟩
  | 31 => ⟨S8192x64, .f32⟩
  | 32 => ⟨S_, .f32⟩
  | 33 => ⟨S_, .f32⟩
  | 34 => ⟨S_, .f32⟩
  | 35 => ⟨S_, .f32⟩
  | 36 => ⟨S64x128, .f32⟩
  | 37 => ⟨S64x128, .f32⟩
  | 38 => ⟨S64x128, .f32⟩
  | 39 => ⟨S64x128, .f32⟩
  | 40 => ⟨S_, .f32⟩
  | 41 => ⟨S64x128, .f32⟩
  | 42 => ⟨S64x128, .f32⟩
  | 43 => ⟨S64x128, .f32⟩
  | 44 => ⟨S_, .f32⟩
  | 45 => ⟨S64, .f32⟩
  | 46 => ⟨S_, .f32⟩
  | 47 => ⟨S_, .f32⟩
  | 48 => ⟨S64, .f32⟩
  | 49 => ⟨S64, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S64, .f32⟩
  | 58 => ⟨S64, .f32⟩
  | 59 => ⟨S_, .f32⟩
  | 60 => ⟨S64, .f32⟩
  | 61 => ⟨S64, .i1⟩
  | 62 => ⟨S_, .f32⟩
  | 63 => ⟨S_, .f32⟩
  | 64 => ⟨S64, .f32⟩
  | 65 => ⟨S64, .f32⟩
  | 66 => ⟨S64, .f32⟩
  | 67 => ⟨S64, .f32⟩
  | 68 => ⟨S128x64, .f32⟩
  | 69 => ⟨S8192x64, .f32⟩
  | 70 => ⟨S1x64, .f32⟩
  | 71 => ⟨S8192x64, .f32⟩
  | 72 => ⟨S8192x64, .f32⟩
  | 73 => ⟨S_, .f32⟩
  | 74 => ⟨S8192x64, .f32⟩
  | 75 => ⟨S8192x64, .f32⟩
  | 76 => ⟨S1x64, .f32⟩
  | 77 => ⟨S8192x64, .f32⟩
  | 78 => ⟨S8192x64, .f32⟩
  | 79 => ⟨S64x1000, .f32⟩
  | 80 => ⟨S8192x1000, .f32⟩
  | 81 => ⟨S1x1000, .f32⟩
  | 82 => ⟨S8192x1000, .f32⟩
  | 83 => ⟨S8192x1000, .f32⟩
  | 84 => ⟨S_, .f32⟩
  | 85 => ⟨S8192x1000, .f32⟩
  | 86 => ⟨S8192x1000, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_1 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_2 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_4 : Ref sig .tc := ⟨.hbm, 50, rfl⟩
abbrev main_v22 : Ref sig .tc := ⟨.hbm, 51, rfl⟩
abbrev main_cst_5 : Ref sig .tc := ⟨.hbm, 52, rfl⟩
abbrev main_v23 : Ref sig .tc := ⟨.hbm, 53, rfl⟩
abbrev main_v24 : Ref sig .tc := ⟨.hbm, 54, rfl⟩
abbrev main_cst_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_7 : Ref sig .tc := ⟨.hbm, 59, rfl⟩
abbrev main_v28 : Ref sig .tc := ⟨.hbm, 60, rfl⟩
abbrev main_v29 : Ref sig .tc := ⟨.hbm, 61, rfl⟩
abbrev main_cst_8 : Ref sig .tc := ⟨.hbm, 62, rfl⟩
abbrev main_cst_9 : Ref sig .tc := ⟨.hbm, 63, rfl⟩
abbrev main_call2_v0 : Ref sig .tc := ⟨.hbm, 64, rfl⟩
abbrev main_call2_v1 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_call3_cst : Ref sig .tc := ⟨.hbm, 73, rfl⟩
abbrev main_call3_v0 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call4_v0 : Ref sig .tc := ⟨.hbm, 79, rfl⟩
abbrev main_call4_cst : Ref sig .tc := ⟨.hbm, 80, rfl⟩
abbrev main_call4_v1 : Ref sig .tc := ⟨.hbm, 81, rfl⟩
abbrev main_call4_v2 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_call5_v0 : Ref sig .tc := ⟨.hbm, 88, rfl⟩
abbrev main_call5_cst : Ref sig .tc := ⟨.hbm, 89, rfl⟩
abbrev main_call5_v1 : Ref sig .tc := ⟨.hbm, 90, rfl⟩
abbrev main_call5_v2 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_10 : Ref sig .tc := ⟨.hbm, 96, rfl⟩
abbrev main_v50 : Ref sig .tc := ⟨.hbm, 97, rfl⟩
abbrev main_cst_11 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_12 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst_13 : Ref sig .tc := ⟨.hbm, 108, rfl⟩
abbrev main_v59 : Ref sig .tc := ⟨.hbm, 109, rfl⟩
abbrev main_cst_14 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_15 : Ref sig .tc := ⟨.hbm, 114, rfl⟩
abbrev main_v63 : Ref sig .tc := ⟨.hbm, 115, rfl⟩
abbrev main_cst_16 : Ref sig .tc := ⟨.hbm, 116, rfl⟩
abbrev main_v64 : Ref sig .tc := ⟨.hbm, 117, rfl⟩
abbrev main_v65 : Ref sig .tc := ⟨.hbm, 118, rfl⟩
abbrev main_cst_17 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_cst_18 : Ref sig .tc := ⟨.hbm, 123, rfl⟩
abbrev main_v69 : Ref sig .tc := ⟨.hbm, 124, rfl⟩
abbrev main_v70 : Ref sig .tc := ⟨.hbm, 125, rfl⟩
abbrev main_cst_19 : Ref sig .tc := ⟨.hbm, 126, rfl⟩
abbrev main_cst_20 : Ref sig .tc := ⟨.hbm, 127, rfl⟩
abbrev main_call6_v0 : Ref sig .tc := ⟨.hbm, 128, rfl⟩
abbrev main_call6_v1 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_call7_cst : Ref sig .tc := ⟨.hbm, 137, rfl⟩
abbrev main_call7_v0 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_call8_v0 : Ref sig .tc := ⟨.hbm, 143, rfl⟩
abbrev main_call8_cst : Ref sig .tc := ⟨.hbm, 144, rfl⟩
abbrev main_call8_v1 : Ref sig .tc := ⟨.hbm, 145, rfl⟩
abbrev main_call8_v2 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_call9_v0 : Ref sig .tc := ⟨.hbm, 152, rfl⟩
abbrev main_call9_cst : Ref sig .tc := ⟨.hbm, 153, rfl⟩
abbrev main_call9_v1 : Ref sig .tc := ⟨.hbm, 154, rfl⟩
abbrev main_call9_v2 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_cst_21 : Ref sig .tc := ⟨.hbm, 160, rfl⟩
abbrev main_v91 : Ref sig .tc := ⟨.hbm, 161, rfl⟩
abbrev main_cst_22 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_cst_23 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_cst_24 : Ref sig .tc := ⟨.hbm, 172, rfl⟩
abbrev main_v100 : Ref sig .tc := ⟨.hbm, 173, rfl⟩
abbrev main_cst_25 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_cst_26 : Ref sig .tc := ⟨.hbm, 178, rfl⟩
abbrev main_v104 : Ref sig .tc := ⟨.hbm, 179, rfl⟩
abbrev main_cst_27 : Ref sig .tc := ⟨.hbm, 180, rfl⟩
abbrev main_v105 : Ref sig .tc := ⟨.hbm, 181, rfl⟩
abbrev main_v106 : Ref sig .tc := ⟨.hbm, 182, rfl⟩
abbrev main_cst_28 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_cst_29 : Ref sig .tc := ⟨.hbm, 187, rfl⟩
abbrev main_v110 : Ref sig .tc := ⟨.hbm, 188, rfl⟩
abbrev main_v111 : Ref sig .tc := ⟨.hbm, 189, rfl⟩
abbrev main_cst_30 : Ref sig .tc := ⟨.hbm, 190, rfl⟩
abbrev main_cst_31 : Ref sig .tc := ⟨.hbm, 191, rfl⟩
abbrev main_call10_v0 : Ref sig .tc := ⟨.hbm, 192, rfl⟩
abbrev main_call10_v1 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_call11_cst : Ref sig .tc := ⟨.hbm, 201, rfl⟩
abbrev main_call11_v0 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_call12_cst : Ref sig .tc := ⟨.hbm, 212, rfl⟩
abbrev main_call12_v0 : Ref sig .tc := ⟨.hbm, 213, rfl⟩
abbrev main_v128 : Ref sig .tc := ⟨.hbm, 214, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  transposes_S256x1024_S1024x256_1_0 : S256x1024.Transposes [1, 0] S1024x256
  reducesTo_S8192x256_S8192_d1 : S8192x256.ReducesTo [1] S8192
  bcast_S8192x1_S8192x256_0_1 : S8192x1.BroadcastsInDim S8192x256 (![0, 1] : Fin 2 → Fin S8192x256.rank)
  reducesTo_S8192x256_S_d0_1 : S8192x256.ReducesTo [0, 1] S_
  bcast_S_S256x1024 : S_.BroadcastsInDim S256x1024 (![] : Fin 0 → Fin S256x1024.rank)
  reducesTo_S256x1024_S256_d1 : S256x1024.ReducesTo [1] S256
  reducesTo_S256_S_d0 : S256.ReducesTo [0] S_
  bcast_S_S256 : S_.BroadcastsInDim S256 (![] : Fin 0 → Fin S256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S128x256_S256x128_1_0 : S128x256.Transposes [1, 0] S256x128
  reducesTo_S8192x128_S8192_d1 : S8192x128.ReducesTo [1] S8192
  bcast_S8192x1_S8192x128_0_1 : S8192x1.BroadcastsInDim S8192x128 (![0, 1] : Fin 2 → Fin S8192x128.rank)
  reducesTo_S8192x128_S_d0_1 : S8192x128.ReducesTo [0, 1] S_
  bcast_S_S128x256 : S_.BroadcastsInDim S128x256 (![] : Fin 0 → Fin S128x256.rank)
  reducesTo_S128x256_S128_d1 : S128x256.ReducesTo [1] S128
  reducesTo_S128_S_d0 : S128.ReducesTo [0] S_
  bcast_S_S128 : S_.BroadcastsInDim S128 (![] : Fin 0 → Fin S128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  transposes_S64x128_S128x64_1_0 : S64x128.Transposes [1, 0] S128x64
  reducesTo_S8192x64_S8192_d1 : S8192x64.ReducesTo [1] S8192
  bcast_S8192x1_S8192x64_0_1 : S8192x1.BroadcastsInDim S8192x64 (![0, 1] : Fin 2 → Fin S8192x64.rank)
  reducesTo_S8192x64_S_d0_1 : S8192x64.ReducesTo [0, 1] S_
  bcast_S_S64x128 : S_.BroadcastsInDim S64x128 (![] : Fin 0 → Fin S64x128.rank)
  reducesTo_S64x128_S64_d1 : S64x128.ReducesTo [1] S64
  reducesTo_S64_S_d0 : S64.ReducesTo [0] S_
  bcast_S_S64 : S_.BroadcastsInDim S64 (![] : Fin 0 → Fin S64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  transposes_S1000x64_S64x1000_1_0 : S1000x64.Transposes [1, 0] S64x1000
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  bcast_S_S8192x1000 : S_.BroadcastsInDim S8192x1000 (![] : Fin 0 → Fin S8192x1000.rank)
  dot_S8192x1024_S1024x256_S8192x256_1_0_0_1_n_n_wf : DotDims.WF S8192x1024 S1024x256 S8192x256 [1] [0] [0] [1] [] []
  dot_S8192x256_S8192x1024_S256x1024_0_0_1_1_n_n_wf : DotDims.WF S8192x256 S8192x1024 S256x1024 [0] [0] [1] [1] [] []
  dot_S8192x256_S256x128_S8192x128_1_0_0_1_n_n_wf : DotDims.WF S8192x256 S256x128 S8192x128 [1] [0] [0] [1] [] []
  dot_S8192x128_S8192x256_S128x256_0_0_1_1_n_n_wf : DotDims.WF S8192x128 S8192x256 S128x256 [0] [0] [1] [1] [] []
  dot_S8192x128_S128x64_S8192x64_1_0_0_1_n_n_wf : DotDims.WF S8192x128 S128x64 S8192x64 [1] [0] [0] [1] [] []
  dot_S8192x64_S8192x128_S64x128_0_0_1_1_n_n_wf : DotDims.WF S8192x64 S8192x128 S64x128 [0] [0] [1] [1] [] []
  dot_S8192x64_S64x1000_S8192x1000_1_0_0_1_n_n_wf : DotDims.WF S8192x64 S64x1000 S8192x1000 [1] [0] [0] [1] [] []

variable [Facts₀]

def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S8192x256_S8192x1024_S256x1024_0_0_1_1_n_n : DotDims S8192x256 S8192x1024 S256x1024 where
  lhsContracting := [0]
  rhsContracting := [0]
  lhsNonContracting := [1]
  rhsNonContracting := [1]
  lhsBatch := []
  rhsBatch := []
  wf := dot_S8192x256_S8192x1024_S256x1024_0_0_1_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S8192x256_S128x256_0_0_1_1_n_n : DotDims S8192x128 S8192x256 S128x256 where
  lhsContracting := [0]
  rhsContracting := [0]
  lhsNonContracting := [1]
  rhsNonContracting := [1]
  lhsBatch := []
  rhsBatch := []
  wf := dot_S8192x128_S8192x256_S128x256_0_0_1_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S8192x128_S64x128_0_0_1_1_n_n : DotDims S8192x64 S8192x128 S64x128 where
  lhsContracting := [0]
  rhsContracting := [0]
  lhsNonContracting := [1]
  rhsNonContracting := [1]
  lhsBatch := []
  rhsBatch := []
  wf := dot_S8192x64_S8192x128_S64x128_0_0_1_1_n_n_wf
def dot_S8192x64_S64x1000_S8192x1000_1_0_0_1_n_n : DotDims S8192x64 S64x1000 S8192x1000 where
  lhsContracting := [1]
  rhsContracting := [0]
  lhsNonContracting := [0]
  rhsNonContracting := [1]
  lhsBatch := []
  rhsBatch := []
  wf := dot_S8192x64_S64x1000_S8192x1000_1_0_0_1_n_n_wf

class Facts : Prop extends Facts₀ where

variable [Facts]
-- ==== Proof.LibWholeBuffer.lean ====
import Idealize.ShloMosaic.Lib.Pipeline.FrameBody
import Idealize.ShloMosaic.Lib.Pipeline.Value

namespace Cert.Whole

open Idealize.ShloMosaic Idealize.ShloMosaic.TcCoe

theorem hz2 : (![0, 0] : Fin 2 → Nat) = fun _ => 0 := funext fun a => by fin_cases a <;> rfl

variable {Val : EltTy → Type} [∀ e, Nonempty (Val e)] {sg : RefSig} {κ : Kind} {sp : Space} {S : Shape} {e : EltTy}

/-- A load through the rectangle that is the whole buffer reads the buffer's contents. -/
theorem readAt_unit_zero (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- The last store through the whole buffer's rectangle is what the buffer reads as, whatever was stored before. -/
theorem read_writes_cons_unit_zero (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  funext y
  rw [View.read_writes_apply_eq_canon v f y _ ⟨_, List.mem_cons_self, View.mem_set_unit_zero h inb y⟩,
    View.canon_cons_unit_zero h inb]

/-- A load of the whole buffer after such a store reads the stored payload. -/
theorem readCov_cons_unit_zero (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  View.readCov_cons_toLoadRect v (Rect.unit off S.size inb) w L

end Cert.Whole
-- ==== Proof.K.Reg0.lean ====
import proofs.«131279_j13907104104967_1_alg».proof.Proof.Gen.Kernel.Launch
import proofs.«131279_j13907104104967_1_alg».proof.Proof.Gen.Kernel.Skeleton
import proofs.«131279_j13907104104967_1_alg».proof.Proof.Gen.Kernel.Points
import proofs.«131279_j13907104104967_1_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Whole

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def pt0 (n : ℕ) : Fin cfg0.N := ⟨min n 15, by rw [show cfg0.N = 16 from N_0]; omega⟩

theorem pt0_val (t : Fin cfg0.N) : pt0 t.val = t := by
  have h : t.val < 16 := lt_of_lt_of_eq t.isLt (show cfg0.N = 16 from N_0)
  apply Fin.ext; show min t.val 15 = t.val; omega

def accS0 (c : Dev nD) : ℕ → Vec F S1x1 .f32
  | 0 => k0_pay4
  | n + 1 => k0_pay1 (k0_pay10 (iblk0 V c 0 (pt0 n)) (iblk0 V c 4 (pt0 n))) (accS0 c n)

def accD0 (c : Dev nD) : ℕ → Vec F S1x256 .f32
  | 0 => k0_pay5
  | n + 1 => k0_pay2 (k0_pay8 (iblk0 V c 0 (pt0 n))) (k0_pay9 (iblk0 V c 0 (pt0 n)) (iblk0 V c 4 (pt0 n))) (accD0 c n)

abbrev scS0 : Memref sig .tc .vmem S1x1 .f32 := Memref.whole cc0_scratch0
abbrev scD0 : Memref sig .tc .vmem S1x256 .f32 := Memref.whole cc0_scratch1

abbrev rest0 (c : Dev nD) : sProp 𝕄 :=
  Pipeline.scopedRestBut (Ix := Unit) (Name := ℕ) (U := UR sig nD τ) (Lvl := ℕ) (Val := Elt F) spec0 c [cc0_scratch0, cc0_scratch1]

def Phi0 (c : Dev nD) : ℕ → sProp 𝕄
  | 0 => Pipeline.ΦA spec0 c
  | n + 1 => iprop(owns c.tc scS0 fullShare (accS0 V c (n + 1))
      ∗ owns c.tc scD0 fullShare (accD0 V c (n + 1))
      ∗ rest0 c
      ∗ ∃ r, prngReg c r)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay7 (iblk0 V c 0 t) (iblk0 V c 1 t) (iblk0 V c 2 t) (iblk0 V c 3 t)
    | ⟨7, _⟩ => k0_pay3 (k0_pay6 (iblk0 V c 5 t)) (accS0 V c 16) (accD0 V c 16)
  Φ t := Phi0 V c t.val
  q _ := fullShare
  owed _ := 0

theorem A_eq0 (c : Dev nD) (w : Fin cfg0.W) : (dat0 V c).A w = V c (Pipeline.arrRef spec0 w) := by
  dsimp only [dat0]
theorem Phi0_zero (c : Dev nD) : (dat0 V c).Φ 0 = Pipeline.ΦA spec0 c := rfl
theorem owed0 (c : Dev nD) (t) : (dat0 V c).owed t = 0 := rfl
theorem q0 (c : Dev nD) (w) : (dat0 V c).q w = fullShare := rfl
theorem after0_6 (c : Dev nD) (t : Fin cfg0.N) :
    (dat0 V c).after 6 t = k0_pay7 (iblk0 V c 0 t) (iblk0 V c 1 t) (iblk0 V c 2 t) (iblk0 V c 3 t) := by dsimp only [dat0]
theorem after0_7 (c : Dev nD) (t : Fin cfg0.N) :
    (dat0 V c).after 7 t = k0_pay3 (k0_pay6 (iblk0 V c 5 t)) (accS0 V c 16) (accD0 V c 16) := by dsimp only [dat0]

abbrev cond0_1 (i : grid0.Coords) : Prop :=
  (Scalar.cmpi .ne (Scalar.extui (Scalar.cmpi .eq (BitVec.ofNat 32 (i 0).val) 0#32)) 0#32) = 1#1
abbrev cond0_2 (i : grid0.Coords) : Prop := k0_cond2 i = 1#1

theorem hcond0 : ∀ t : Fin cfg0.N, (cond0_1 (grid0.coords t) ↔ decide (t.val = 0) = true) ∧ (cond0_2 (grid0.coords t) ↔ decide (t.val = 15) = true) :=
  (by decide +kernel : ∀ t : Fin grid0.N, (cond0_1 (grid0.coords t) ↔ decide (t.val = 0) = true) ∧ (cond0_2 (grid0.coords t) ↔ decide (t.val = 15) = true))

theorem idle0_7 : ∀ t : Fin cfg0.N, t.val ≠ 15 → cfg0.idle 7 (grid0.coords t) = true ∧ (cfg0.win 7).flush t = false := by decide +kernel
theorem live0_7 : ∀ t : Fin cfg0.N, t.val = 15 → cfg0.idle 7 (grid0.coords t) = false := by decide +kernel

/-- One point of the body: `b1` says it is the first (the sums restart from zero), `b2` that it is the last (the mask row is computed from the sums). -/
theorem run0 (c : Dev nD) (E : Set ℕ) (i : grid0.Coords) (arg1 harg1 arg2 harg2 arg3 harg3 arg4 harg4 arg5 harg5 arg6 harg6 arg7 harg7 arg8 harg8 arg9 harg9 arg10 harg10)
    (b1 b2 : Bool) (h1 : cond0_1 i ↔ b1 = true) (h2 : cond0_2 i ↔ b2 = true) (hx : b1 = true → b2 = true → False)
    (x0 x1 x2 x3 x4 x5 d6 x7 aS aS' aD aD')
    (hS : aS' = k0_pay1 (k0_pay10 x0 x4) (bif b1 then k0_pay4 else aS)) (hD : aD' = k0_pay2 (k0_pay8 x0) (k0_pay9 x0 x4) (bif b1 then k0_pay5 else aD)) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ owns c.tc arg7 fullShare d6 ∗ owns c.tc arg8 fullShare x7
        ∗ owns c.tc arg9 fullShare aS ∗ owns c.tc arg10 fullShare aD
        ∗ (iprop(owns c.tc arg1 fullShare x0 ∗ owns c.tc arg2 fullShare x1 ∗ owns c.tc arg3 fullShare x2
            ∗ owns c.tc arg4 fullShare x3 ∗ owns c.tc arg5 fullShare x4 ∗ owns c.tc arg6 fullShare x5
            ∗ owns c.tc arg7 fullShare (k0_pay7 x0 x1 x2 x3) ∗ owns c.tc arg8 fullShare (bif b2 then k0_pay3 (k0_pay6 x5) aS' aD' else x7)
            ∗ owns c.tc arg9 fullShare aS' ∗ owns c.tc arg10 fullShare aD') -∗ K ⟨⟩))
      ⊢ wp frame (wpE (defs₀ (F := F)) Variants.none c none) E (cc0__hebbian_layer_kernel i arg1 harg1 arg2 harg2 arg3 harg3 arg4 harg4 arg5 harg5 arg6 harg6 arg7 harg7 arg8 harg8 arg9 harg9 arg10 harg10) K := by
  simp only [cc0__hebbian_layer_kernel_eq_skeleton]; unfold cc0__hebbian_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, ⟨%f8, %hf8, H8⟩, ⟨%f9, %hf9, H9⟩, ⟨%f10, %hf10, H10⟩, Hk⟩
  subst hf1 hf2 hf3 hf4 hf5 hf6 hf8 hf9 hf10 hS hD
  cases b1 <;> cases b2 <;> first | exact (hx rfl rfl).elim | skip
  all_goals
    simp only [eq_self, iff_true, Bool.false_eq_true, iff_false] at h1 h2
    sl_exec (disch := first | exact h1 | exact h2)
    sl_step
    iapply Hk
    isplitl [H1]; swap; isplitl [H2]; swap; isplitl [H3]; swap; isplitl [H4]; swap; isplitl [H5]; swap
    isplitl [H6]; swap; isplitl [H7]; swap; isplitl [H8]; swap; isplitl [H9]; swap
    all_goals (iexists _; isplitr; swap; iassumption; ipureintro)
    all_goals first
      | exact (read_writes_cons_unit_zero _ _ hz2 _ _ _).trans (by sl_unfold_run_names; simp only [View.readCov_unit_zero (S := S1x1) _ hz2, View.readCov_unit_zero (S := S1x256) _ hz2, View.readAt_eq_ld, View.ld_unit_zero (S := S512x1024) hz2, View.ld_unit_zero (S := S256x1024) hz2, View.ld_unit_zero (S := S1x256) hz2, View.ld_unit_zero (S := S1x1) hz2, cond_true, cond_false])
      | rfl

/-- What the body reads of an input at point `t` is that input's block `t` of the array. -/
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d

theorem PhiA0_eq (c : Dev nD) :
    (Pipeline.ΦA spec0 c : sProp 𝕄)
      = iprop(iprop(iprop((∃ d, owns c.tc scS0 fullShare d) ∗ (∃ d, owns c.tc scD0 fullShare d))
          ∗ rest0 c)
          ∗ ∃ r, prngReg c r) := by
  unfold Pipeline.ΦA; rw [scopedRest0_split]; simp only [scS0, scD0, owns_whole]; try rfl

theorem accS0_succ (c : Dev nD) (t : Fin cfg0.N) :
    accS0 V c (t.val + 1) = k0_pay1 (k0_pay10 (iblk0 V c 0 t) (iblk0 V c 4 t)) (accS0 V c t.val) := by
  rw [accS0, pt0_val]
theorem accD0_succ (c : Dev nD) (t : Fin cfg0.N) :
    accD0 V c (t.val + 1) = k0_pay2 (k0_pay8 (iblk0 V c 0 t)) (k0_pay9 (iblk0 V c 0 t) (iblk0 V c 4 t)) (accD0 V c t.val) := by
  rw [accD0, pt0_val]

/-- The invariant holds the two running sums: anything before the first tile, where they restart from zero, the sums so far after it. -/
theorem Phi0_open (c : Dev nD) (n : ℕ) :
    Phi0 V c n ⊢ iprop(∃ dS dD, ⌜(bif decide (n = 0) then k0_pay4 else dS) = accS0 V c n ∧ (bif decide (n = 0) then k0_pay5 else dD) = accD0 V c n⌝
      ∗ owns c.tc scS0 fullShare dS ∗ owns c.tc scD0 fullShare dD
      ∗ rest0 c
      ∗ ∃ r, prngReg c r) := by
  cases n with
  | zero =>
    show Pipeline.ΦA spec0 c ⊢ _
    rw [PhiA0_eq]
    iintro ⟨⟨⟨⟨%dS, HS⟩, ⟨%dD, HD⟩⟩, Hr⟩, Hg⟩
    iexists dS, dD; iframe; ipureintro; exact ⟨rfl, rfl⟩
  | succ n =>
    rw [Phi0]
    iintro ⟨HS, HD, Hr, Hg⟩
    iexists _, _; iframe; ipureintro; exact ⟨rfl, rfl⟩

/-- The mask row after point `t`: the thresholded score of the whole batch's sums at the last point, untouched before it. -/
theorem leaves0_7 (c : Dev nD) (t : Fin cfg0.N) (d) :
    owns c.tc (st0_7 t) fullShare (bif decide (t.val = 15) then k0_pay3 (k0_pay6 (iblk0 V c 5 t)) (accS0 V c (t.val + 1)) (accD0 V c (t.val + 1)) else (dat0 V c).before 7 t d)
      ⊢ (dat0 V c).leavesExact 7 t := by
  by_cases h : t.val = 15
  · rw [h, decide_eq_true rfl, cond_true]; unfold Dat.leavesExact; rw [live0_7 t h, after0_7]
  · rw [decide_eq_false h, cond_false, Dat.leavesExact_idle _ 7 t (idle0_7 t h).1 (idle0_7 t h).2]
    iintro H; iexists d; iexact H

/-- The body at any point: the invariant lends it the two sums, and one run covers the first, the middle and the last points. -/
theorem sound_body0 (c : Dev nD) (t : Fin cfg0.N) :
    iprop(Phi0 V c t.val ∗ (dat0 V c).owesAt () t.castSucc
      ∗ (∃ d, owns c.tc (st0_0 t) fullShare ((dat0 V c).before 0 t d))
      ∗ (∃ d, owns c.tc (st0_1 t) fullShare ((dat0 V c).before 1 t d))
      ∗ (∃ d, owns c.tc (st0_2 t) fullShare ((dat0 V c).before 2 t d))
      ∗ (∃ d, owns c.tc (st0_3 t) fullShare ((dat0 V c).before 3 t d))
      ∗ (∃ d, owns c.tc (st0_4 t) fullShare ((dat0 V c).before 4 t d))
      ∗ (∃ d, owns c.tc (st0_5 t) fullShare ((dat0 V c).before 5 t d))
      ∗ (∃ d, owns c.tc (st0_6 t) fullShare ((dat0 V c).before 6 t d))
      ∗ (∃ d, owns c.tc (st0_7 t) fullShare ((dat0 V c).before 7 t d)))
    ⊢ wp frame (wpE (defs₀ (F := F)) Variants.none c none) Set.univ (bodyAt0 t) (fun _ =>
      iprop(Phi0 V c (t.val + 1) ∗ (dat0 V c).owesAt () t.castSucc
      ∗ owns c.tc (st0_0 t) fullShare (iblk0 V c 0 t)
      ∗ owns c.tc (st0_1 t) fullShare (iblk0 V c 1 t)
      ∗ owns c.tc (st0_2 t) fullShare (iblk0 V c 2 t)
      ∗ owns c.tc (st0_3 t) fullShare (iblk0 V c 3 t)
      ∗ owns c.tc (st0_4 t) fullShare (iblk0 V c 4 t)
      ∗ owns c.tc (st0_5 t) fullShare (iblk0 V c 5 t)
      ∗ owns c.tc (st0_6 t) fullShare (k0_pay7 (iblk0 V c 0 t) (iblk0 V c 1 t) (iblk0 V c 2 t) (iblk0 V c 3 t))
      ∗ (dat0 V c).leavesExact 7 t)) := by
  simp only [before0_0, before0_1, before0_2, before0_3, before0_4, before0_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  icases (Phi0_open V c t.val) $$ HΦ with ⟨%dS, %dD, %ha, HS, HD, Hr, Hg⟩
  iapply run0 c Set.univ (grid0.coords t) (st0_0 t) _ (st0_1 t) _ (st0_2 t) _ (st0_3 t) _ (st0_4 t) _ (st0_5 t) _ (st0_6 t) _ (st0_7 t) _ scS0 _ scD0 _
    (decide (t.val = 0)) (decide (t.val = 15)) (hcond0 t).1 (hcond0 t).2
    (fun h h' => by have := of_decide_eq_true h; have := of_decide_eq_true h'; omega)
    (iblk0 V c 0 t) (iblk0 V c 1 t) (iblk0 V c 2 t) (iblk0 V c 3 t) (iblk0 V c 4 t) (iblk0 V c 5 t) ((dat0 V c).before 6 t d6) ((dat0 V c).before 7 t d7) dS (accS0 V c (t.val + 1)) dD (accD0 V c (t.val + 1))
    ((accS0_succ V c t).trans (congrArg _ ha.1.symm)) ((accD0_succ V c t).trans (congrArg _ ha.2.symm)) _
  iframe H0 H1 H2 H3 H4 H5 H6 H7 HS HD
  iintro ⟨H0, H1, H2, H3, H4, H5, H6, H7, HS, HD⟩
  rw [Phi0]
  iframe
  iapply (leaves0_7 V c t d7) $$ H7

theorem body_obligation0 (c : Dev nD) : BodyObligation (dat0 (F := F) V c) (defs₀ (F := F)) Variants.none () Set.univ := fun t => by
  rw [bigSep_W0, bigSep_W0]
  exact sound_body0 V c t

/-- After the last point the sums' contents are forgotten again. -/
theorem Phi0_last (c : Dev nD) : (dat0 V c).Φ (Fin.last cfg0.N) ⊢ (Pipeline.ΦA spec0 c : sProp 𝕄) := by
  rw [show (dat0 V c).Φ (Fin.last cfg0.N) = Phi0 V c (15 + 1) from rfl, Phi0, PhiA0_eq]
  iintro ⟨HS, HD, Hr, Hg⟩
  iframe
  isplitl [HS] <;> (iexists _; iassumption)

end Region0

end Cert.Kernel.Hand

end
-- ==== Proof.K.Reg1.lean ====
import proofs.«131279_j13907104104967_1_alg».proof.Proof.Gen.Kernel.Launch
import proofs.«131279_j13907104104967_1_alg».proof.Proof.Gen.Kernel.Skeleton
import proofs.«131279_j13907104104967_1_alg».proof.Proof.Gen.Kernel.Points
import proofs.«131279_j13907104104967_1_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Whole

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def pt1 (n : ℕ) : Fin cfg1.N := ⟨min n 15, by rw [show cfg1.N = 16 from N_1]; omega⟩

theorem pt1_val (t : Fin cfg1.N) : pt1 t.val = t := by
  have h : t.val < 16 := lt_of_lt_of_eq t.isLt (show cfg1.N = 16 from N_1)
  apply Fin.ext; show min t.val 15 = t.val; omega

def accS1 (c : Dev nD) : ℕ → Vec F S1x1 .f32
  | 0 => k1_pay4
  | n + 1 => k1_pay1 (k1_pay10 (iblk1 V c 0 (pt1 n)) (iblk1 V c 4 (pt1 n))) (accS1 c n)

def accD1 (c : Dev nD) : ℕ → Vec F S1x128 .f32
  | 0 => k1_pay5
  | n + 1 => k1_pay2 (k1_pay9 (iblk1 V c 0 (pt1 n))) (k1_pay10 (iblk1 V c 0 (pt1 n)) (iblk1 V c 4 (pt1 n))) (accD1 c n)

abbrev scS1 : Memref sig .tc .vmem S1x1 .f32 := Memref.whole cc1_scratch0
abbrev scD1 : Memref sig .tc .vmem S1x128 .f32 := Memref.whole cc1_scratch1

abbrev rest1 (c : Dev nD) : sProp 𝕄 :=
  Pipeline.scopedRestBut (Ix := Unit) (Name := ℕ) (U := UR sig nD τ) (Lvl := ℕ) (Val := Elt F) spec1 c [cc1_scratch0, cc1_scratch1]

def Phi1 (c : Dev nD) : ℕ → sProp 𝕄
  | 0 => Pipeline.ΦA spec1 c
  | n + 1 => iprop(owns c.tc scS1 fullShare (accS1 V c (n + 1))
      ∗ owns c.tc scD1 fullShare (accD1 V c (n + 1))
      ∗ rest1 c
      ∗ ∃ r, prngReg c r)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay8 (iblk1 V c 0 t) (iblk1 V c 1 t) (iblk1 V c 2 t) (iblk1 V c 3 t)
    | ⟨7, _⟩ => k1_pay3 (k1_pay7 (iblk1 V c 5 t)) (accS1 V c 16) (accD1 V c 16)
  Φ t := Phi1 V c t.val
  q _ := fullShare
  owed _ := 0

theorem A_eq1 (c : Dev nD) (w : Fin cfg1.W) : (dat1 V c).A w = V c (Pipeline.arrRef spec1 w) := by
  dsimp only [dat1]
theorem Phi1_zero (c : Dev nD) : (dat1 V c).Φ 0 = Pipeline.ΦA spec1 c := rfl
theorem owed1 (c : Dev nD) (t) : (dat1 V c).owed t = 0 := rfl
theorem q1 (c : Dev nD) (w) : (dat1 V c).q w = fullShare := rfl
theorem after1_6 (c : Dev nD) (t : Fin cfg1.N) :
    (dat1 V c).after 6 t = k1_pay8 (iblk1 V c 0 t) (iblk1 V c 1 t) (iblk1 V c 2 t) (iblk1 V c 3 t) := by dsimp only [dat1]
theorem after1_7 (c : Dev nD) (t : Fin cfg1.N) :
    (dat1 V c).after 7 t = k1_pay3 (k1_pay7 (iblk1 V c 5 t)) (accS1 V c 16) (accD1 V c 16) := by dsimp only [dat1]

abbrev cond1_1 (i : grid1.Coords) : Prop :=
  (Scalar.cmpi .ne (Scalar.extui (Scalar.cmpi .eq (BitVec.ofNat 32 (i 0).val) 0#32)) 0#32) = 1#1
abbrev cond1_2 (i : grid1.Coords) : Prop := k1_cond2 i = 1#1

theorem hcond1 : ∀ t : Fin cfg1.N, (cond1_1 (grid1.coords t) ↔ decide (t.val = 0) = true) ∧ (cond1_2 (grid1.coords t) ↔ decide (t.val = 15) = true) :=
  (by decide +kernel : ∀ t : Fin grid1.N, (cond1_1 (grid1.coords t) ↔ decide (t.val = 0) = true) ∧ (cond1_2 (grid1.coords t) ↔ decide (t.val = 15) = true))

theorem idle1_7 : ∀ t : Fin cfg1.N, t.val ≠ 15 → cfg1.idle 7 (grid1.coords t) = true ∧ (cfg1.win 7).flush t = false := by decide +kernel
theorem live1_7 : ∀ t : Fin cfg1.N, t.val = 15 → cfg1.idle 7 (grid1.coords t) = false := by decide +kernel

/-- One point of the body: `b1` says it is the first (the sums restart from zero), `b2` that it is the last (the mask row is computed from the sums). -/
theorem run1 (c : Dev nD) (E : Set ℕ) (i : grid1.Coords) (arg1 harg1 arg2 harg2 arg3 harg3 arg4 harg4 arg5 harg5 arg6 harg6 arg7 harg7 arg8 harg8 arg9 harg9 arg10 harg10)
    (b1 b2 : Bool) (h1 : cond1_1 i ↔ b1 = true) (h2 : cond1_2 i ↔ b2 = true) (hx : b1 = true → b2 = true → False)
    (x0 x1 x2 x3 x4 x5 d6 x7 aS aS' aD aD')
    (hS : aS' = k1_pay1 (k1_pay10 x0 x4) (bif b1 then k1_pay4 else aS)) (hD : aD' = k1_pay2 (k1_pay9 x0) (k1_pay10 x0 x4) (bif b1 then k1_pay5 else aD)) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ owns c.tc arg7 fullShare d6 ∗ owns c.tc arg8 fullShare x7
        ∗ owns c.tc arg9 fullShare aS ∗ owns c.tc arg10 fullShare aD
        ∗ (iprop(owns c.tc arg1 fullShare x0 ∗ owns c.tc arg2 fullShare x1 ∗ owns c.tc arg3 fullShare x2
            ∗ owns c.tc arg4 fullShare x3 ∗ owns c.tc arg5 fullShare x4 ∗ owns c.tc arg6 fullShare x5
            ∗ owns c.tc arg7 fullShare (k1_pay8 x0 x1 x2 x3) ∗ owns c.tc arg8 fullShare (bif b2 then k1_pay3 (k1_pay7 x5) aS' aD' else x7)
            ∗ owns c.tc arg9 fullShare aS' ∗ owns c.tc arg10 fullShare aD') -∗ K ⟨⟩))
      ⊢ wp frame (wpE (defs₀ (F := F)) Variants.none c none) E (cc1__hebbian_layer_kernel i arg1 harg1 arg2 harg2 arg3 harg3 arg4 harg4 arg5 harg5 arg6 harg6 arg7 harg7 arg8 harg8 arg9 harg9 arg10 harg10) K := by
  simp only [cc1__hebbian_layer_kernel_eq_skeleton]; unfold cc1__hebbian_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, ⟨%f8, %hf8, H8⟩, ⟨%f9, %hf9, H9⟩, ⟨%f10, %hf10, H10⟩, Hk⟩
  subst hf1 hf2 hf3 hf4 hf5 hf6 hf8 hf9 hf10 hS hD
  cases b1 <;> cases b2 <;> first | exact (hx rfl rfl).elim | skip
  all_goals
    simp only [eq_self, iff_true, Bool.false_eq_true, iff_false] at h1 h2
    sl_exec (disch := first | exact h1 | exact h2)
    sl_step
    iapply Hk
    isplitl [H1]; swap; isplitl [H2]; swap; isplitl [H3]; swap; isplitl [H4]; swap; isplitl [H5]; swap
    isplitl [H6]; swap; isplitl [H7]; swap; isplitl [H8]; swap; isplitl [H9]; swap
    all_goals (iexists _; isplitr; swap; iassumption; ipureintro)
    all_goals first
      | exact (read_writes_cons_unit_zero _ _ hz2 _ _ _).trans (by sl_unfold_run_names; simp only [View.readCov_unit_zero (S := S1x1) _ hz2, View.readCov_unit_zero (S := S1x128) _ hz2, View.readAt_eq_ld, View.ld_unit_zero (S := S512x256) hz2, View.ld_unit_zero (S := S128x256) hz2, View.ld_unit_zero (S := S1x128) hz2, View.ld_unit_zero (S := S1x1) hz2, cond_true, cond_false])
      | rfl

/-- What the body reads of an input at point `t` is that input's block `t` of the array. -/
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d

theorem PhiA1_eq (c : Dev nD) :
    (Pipeline.ΦA spec1 c : sProp 𝕄)
      = iprop(iprop(iprop((∃ d, owns c.tc scS1 fullShare d) ∗ (∃ d, owns c.tc scD1 fullShare d))
          ∗ rest1 c)
          ∗ ∃ r, prngReg c r) := by
  unfold Pipeline.ΦA; rw [scopedRest1_split]; simp only [scS1, scD1, owns_whole]; try rfl

theorem accS1_succ (c : Dev nD) (t : Fin cfg1.N) :
    accS1 V c (t.val + 1) = k1_pay1 (k1_pay10 (iblk1 V c 0 t) (iblk1 V c 4 t)) (accS1 V c t.val) := by
  rw [accS1, pt1_val]
theorem accD1_succ (c : Dev nD) (t : Fin cfg1.N) :
    accD1 V c (t.val + 1) = k1_pay2 (k1_pay9 (iblk1 V c 0 t)) (k1_pay10 (iblk1 V c 0 t) (iblk1 V c 4 t)) (accD1 V c t.val) := by
  rw [accD1, pt1_val]

/-- The invariant holds the two running sums: anything before the first tile, where they restart from zero, the sums so far after it. -/
theorem Phi1_open (c : Dev nD) (n : ℕ) :
    Phi1 V c n ⊢ iprop(∃ dS dD, ⌜(bif decide (n = 0) then k1_pay4 else dS) = accS1 V c n ∧ (bif decide (n = 0) then k1_pay5 else dD) = accD1 V c n⌝
      ∗ owns c.tc scS1 fullShare dS ∗ owns c.tc scD1 fullShare dD
      ∗ rest1 c
      ∗ ∃ r, prngReg c r) := by
  cases n with
  | zero =>
    show Pipeline.ΦA spec1 c ⊢ _
    rw [PhiA1_eq]
    iintro ⟨⟨⟨⟨%dS, HS⟩, ⟨%dD, HD⟩⟩, Hr⟩, Hg⟩
    iexists dS, dD; iframe; ipureintro; exact ⟨rfl, rfl⟩
  | succ n =>
    rw [Phi1]
    iintro ⟨HS, HD, Hr, Hg⟩
    iexists _, _; iframe; ipureintro; exact ⟨rfl, rfl⟩

/-- The mask row after point `t`: the thresholded score of the whole batch's sums at the last point, untouched before it. -/
theorem leaves1_7 (c : Dev nD) (t : Fin cfg1.N) (d) :
    owns c.tc (st1_7 t) fullShare (bif decide (t.val = 15) then k1_pay3 (k1_pay7 (iblk1 V c 5 t)) (accS1 V c (t.val + 1)) (accD1 V c (t.val + 1)) else (dat1 V c).before 7 t d)
      ⊢ (dat1 V c).leavesExact 7 t := by
  by_cases h : t.val = 15
  · rw [h, decide_eq_true rfl, cond_true]; unfold Dat.leavesExact; rw [live1_7 t h, after1_7]
  · rw [decide_eq_false h, cond_false, Dat.leavesExact_idle _ 7 t (idle1_7 t h).1 (idle1_7 t h).2]
    iintro H; iexists d; iexact H

/-- The body at any point: the invariant lends it the two sums, and one run covers the first, the middle and the last points. -/
theorem sound_body1 (c : Dev nD) (t : Fin cfg1.N) :
    iprop(Phi1 V c t.val ∗ (dat1 V c).owesAt () t.castSucc
      ∗ (∃ d, owns c.tc (st1_0 t) fullShare ((dat1 V c).before 0 t d))
      ∗ (∃ d, owns c.tc (st1_1 t) fullShare ((dat1 V c).before 1 t d))
      ∗ (∃ d, owns c.tc (st1_2 t) fullShare ((dat1 V c).before 2 t d))
      ∗ (∃ d, owns c.tc (st1_3 t) fullShare ((dat1 V c).before 3 t d))
      ∗ (∃ d, owns c.tc (st1_4 t) fullShare ((dat1 V c).before 4 t d))
      ∗ (∃ d, owns c.tc (st1_5 t) fullShare ((dat1 V c).before 5 t d))
      ∗ (∃ d, owns c.tc (st1_6 t) fullShare ((dat1 V c).before 6 t d))
      ∗ (∃ d, owns c.tc (st1_7 t) fullShare ((dat1 V c).before 7 t d)))
    ⊢ wp frame (wpE (defs₀ (F := F)) Variants.none c none) Set.univ (bodyAt1 t) (fun _ =>
      iprop(Phi1 V c (t.val + 1) ∗ (dat1 V c).owesAt () t.castSucc
      ∗ owns c.tc (st1_0 t) fullShare (iblk1 V c 0 t)
      ∗ owns c.tc (st1_1 t) fullShare (iblk1 V c 1 t)
      ∗ owns c.tc (st1_2 t) fullShare (iblk1 V c 2 t)
      ∗ owns c.tc (st1_3 t) fullShare (iblk1 V c 3 t)
      ∗ owns c.tc (st1_4 t) fullShare (iblk1 V c 4 t)
      ∗ owns c.tc (st1_5 t) fullShare (iblk1 V c 5 t)
      ∗ owns c.tc (st1_6 t) fullShare (k1_pay8 (iblk1 V c 0 t) (iblk1 V c 1 t) (iblk1 V c 2 t) (iblk1 V c 3 t))
      ∗ (dat1 V c).leavesExact 7 t)) := by
  simp only [before1_0, before1_1, before1_2, before1_3, before1_4, before1_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  icases (Phi1_open V c t.val) $$ HΦ with ⟨%dS, %dD, %ha, HS, HD, Hr, Hg⟩
  iapply run1 c Set.univ (grid1.coords t) (st1_0 t) _ (st1_1 t) _ (st1_2 t) _ (st1_3 t) _ (st1_4 t) _ (st1_5 t) _ (st1_6 t) _ (st1_7 t) _ scS1 _ scD1 _
    (decide (t.val = 0)) (decide (t.val = 15)) (hcond1 t).1 (hcond1 t).2
    (fun h h' => by have := of_decide_eq_true h; have := of_decide_eq_true h'; omega)
    (iblk1 V c 0 t) (iblk1 V c 1 t) (iblk1 V c 2 t) (iblk1 V c 3 t) (iblk1 V c 4 t) (iblk1 V c 5 t) ((dat1 V c).before 6 t d6) ((dat1 V c).before 7 t d7) dS (accS1 V c (t.val + 1)) dD (accD1 V c (t.val + 1))
    ((accS1_succ V c t).trans (congrArg _ ha.1.symm)) ((accD1_succ V c t).trans (congrArg _ ha.2.symm)) _
  iframe H0 H1 H2 H3 H4 H5 H6 H7 HS HD
  iintro ⟨H0, H1, H2, H3, H4, H5, H6, H7, HS, HD⟩
  rw [Phi1]
  iframe
  iapply (leaves1_7 V c t d7) $$ H7

theorem body_obligation1 (c : Dev nD) : BodyObligation (dat1 (F := F) V c) (defs₀ (F := F)) Variants.none () Set.univ := fun t => by
  rw [bigSep_W1, bigSep_W1]
  exact sound_body1 V c t

/-- After the last point the sums' contents are forgotten again. -/
theorem Phi1_last (c : Dev nD) : (dat1 V c).Φ (Fin.last cfg1.N) ⊢ (Pipeline.ΦA spec1 c : sProp 𝕄) := by
  rw [show (dat1 V c).Φ (Fin.last cfg1.N) = Phi1 V c (15 + 1) from rfl, Phi1, PhiA1_eq]
  iintro ⟨HS, HD, Hr, Hg⟩
  iframe
  isplitl [HS] <;> (iexists _; iassumption)

end Region1

end Cert.Kernel.Hand

end
-- ==== Proof.K.Reg2.lean ====
import proofs.«131279_j13907104104967_1_alg».proof.Proof.Gen.Kernel.Launch
import proofs.«131279_j13907104104967_1_alg».proof.Proof.Gen.Kernel.Skeleton
import proofs.«131279_j13907104104967_1_alg».proof.Proof.Gen.Kernel.Points
import proofs.«131279_j13907104104967_1_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Whole

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def pt2 (n : ℕ) : Fin cfg2.N := ⟨min n 15, by rw [show cfg2.N = 16 from N_2]; omega⟩

theorem pt2_val (t : Fin cfg2.N) : pt2 t.val = t := by
  have h : t.val < 16 := lt_of_lt_of_eq t.isLt (show cfg2.N = 16 from N_2)
  apply Fin.ext; show min t.val 15 = t.val; omega

def accS2 (c : Dev nD) : ℕ → Vec F S1x1 .f32
  | 0 => k2_pay4
  | n + 1 => k2_pay1 (k2_pay10 (iblk2 V c 0 (pt2 n)) (iblk2 V c 4 (pt2 n))) (accS2 c n)

def accD2 (c : Dev nD) : ℕ → Vec F S1x64 .f32
  | 0 => k2_pay5
  | n + 1 => k2_pay2 (k2_pay9 (iblk2 V c 0 (pt2 n))) (k2_pay10 (iblk2 V c 0 (pt2 n)) (iblk2 V c 4 (pt2 n))) (accD2 c n)

abbrev scS2 : Memref sig .tc .vmem S1x1 .f32 := Memref.whole cc2_scratch0
abbrev scD2 : Memref sig .tc .vmem S1x64 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

def Phi2 (c : Dev nD) : ℕ → sProp 𝕄
  | 0 => Pipeline.ΦA spec2 c
  | n + 1 => iprop(owns c.tc scS2 fullShare (accS2 V c (n + 1))
      ∗ owns c.tc scD2 fullShare (accD2 V c (n + 1))
      ∗ rest2 c
      ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay8 (iblk2 V c 0 t) (iblk2 V c 1 t) (iblk2 V c 2 t) (iblk2 V c 3 t)
    | ⟨7, _⟩ => k2_pay3 (k2_pay7 (iblk2 V c 5 t)) (accS2 V c 16) (accD2 V c 16)
  Φ t := Phi2 V c t.val
  q _ := fullShare
  owed _ := 0

theorem A_eq2 (c : Dev nD) (w : Fin cfg2.W) : (dat2 V c).A w = V c (Pipeline.arrRef spec2 w) := by
  dsimp only [dat2]
theorem Phi2_zero (c : Dev nD) : (dat2 V c).Φ 0 = Pipeline.ΦA spec2 c := rfl
theorem owed2 (c : Dev nD) (t) : (dat2 V c).owed t = 0 := rfl
theorem q2 (c : Dev nD) (w) : (dat2 V c).q w = fullShare := rfl
theorem after2_6 (c : Dev nD) (t : Fin cfg2.N) :
    (dat2 V c).after 6 t = k2_pay8 (iblk2 V c 0 t) (iblk2 V c 1 t) (iblk2 V c 2 t) (iblk2 V c 3 t) := by dsimp only [dat2]
theorem after2_7 (c : Dev nD) (t : Fin cfg2.N) :
    (dat2 V c).after 7 t = k2_pay3 (k2_pay7 (iblk2 V c 5 t)) (accS2 V c 16) (accD2 V c 16) := by dsimp only [dat2]

abbrev cond2_1 (i : grid2.Coords) : Prop :=
  (Scalar.cmpi .ne (Scalar.extui (Scalar.cmpi .eq (BitVec.ofNat 32 (i 0).val) 0#32)) 0#32) = 1#1
abbrev cond2_2 (i : grid2.Coords) : Prop := k2_cond2 i = 1#1

theorem hcond2 : ∀ t : Fin cfg2.N, (cond2_1 (grid2.coords t) ↔ decide (t.val = 0) = true) ∧ (cond2_2 (grid2.coords t) ↔ decide (t.val = 15) = true) :=
  (by decide +kernel : ∀ t : Fin grid2.N, (cond2_1 (grid2.coords t) ↔ decide (t.val = 0) = true) ∧ (cond2_2 (grid2.coords t) ↔ decide (t.val = 15) = true))

theorem idle2_7 : ∀ t : Fin cfg2.N, t.val ≠ 15 → cfg2.idle 7 (grid2.coords t) = true ∧ (cfg2.win 7).flush t = false := by decide +kernel
theorem live2_7 : ∀ t : Fin cfg2.N, t.val = 15 → cfg2.idle 7 (grid2.coords t) = false := by decide +kernel

/-- One point of the body: `b1` says it is the first (the sums restart from zero), `b2` that it is the last (the mask row is computed from the sums). -/
theorem run2 (c : Dev nD) (E : Set ℕ) (i : grid2.Coords) (arg1 harg1 arg2 harg2 arg3 harg3 arg4 harg4 arg5 harg5 arg6 harg6 arg7 harg7 arg8 harg8 arg9 harg9 arg10 harg10)
    (b1 b2 : Bool) (h1 : cond2_1 i ↔ b1 = true) (h2 : cond2_2 i ↔ b2 = true) (hx : b1 = true → b2 = true → False)
    (x0 x1 x2 x3 x4 x5 d6 x7 aS aS' aD aD')
    (hS : aS' = k2_pay1 (k2_pay10 x0 x4) (bif b1 then k2_pay4 else aS)) (hD : aD' = k2_pay2 (k2_pay9 x0) (k2_pay10 x0 x4) (bif b1 then k2_pay5 else aD)) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ owns c.tc arg7 fullShare d6 ∗ owns c.tc arg8 fullShare x7
        ∗ owns c.tc arg9 fullShare aS ∗ owns c.tc arg10 fullShare aD
        ∗ (iprop(owns c.tc arg1 fullShare x0 ∗ owns c.tc arg2 fullShare x1 ∗ owns c.tc arg3 fullShare x2
            ∗ owns c.tc arg4 fullShare x3 ∗ owns c.tc arg5 fullShare x4 ∗ owns c.tc arg6 fullShare x5
            ∗ owns c.tc arg7 fullShare (k2_pay8 x0 x1 x2 x3) ∗ owns c.tc arg8 fullShare (bif b2 then k2_pay3 (k2_pay7 x5) aS' aD' else x7)
            ∗ owns c.tc arg9 fullShare aS' ∗ owns c.tc arg10 fullShare aD') -∗ K ⟨⟩))
      ⊢ wp frame (wpE (defs₀ (F := F)) Variants.none c none) E (cc2__hebbian_layer_kernel i arg1 harg1 arg2 harg2 arg3 harg3 arg4 harg4 arg5 harg5 arg6 harg6 arg7 harg7 arg8 harg8 arg9 harg9 arg10 harg10) K := by
  simp only [cc2__hebbian_layer_kernel_eq_skeleton]; unfold cc2__hebbian_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, ⟨%f8, %hf8, H8⟩, ⟨%f9, %hf9, H9⟩, ⟨%f10, %hf10, H10⟩, Hk⟩
  subst hf1 hf2 hf3 hf4 hf5 hf6 hf8 hf9 hf10 hS hD
  cases b1 <;> cases b2 <;> first | exact (hx rfl rfl).elim | skip
  all_goals
    simp only [eq_self, iff_true, Bool.false_eq_true, iff_false] at h1 h2
    sl_exec (disch := first | exact h1 | exact h2)
    sl_step
    iapply Hk
    isplitl [H1]; swap; isplitl [H2]; swap; isplitl [H3]; swap; isplitl [H4]; swap; isplitl [H5]; swap
    isplitl [H6]; swap; isplitl [H7]; swap; isplitl [H8]; swap; isplitl [H9]; swap
    all_goals (iexists _; isplitr; swap; iassumption; ipureintro)
    all_goals first
      | exact (read_writes_cons_unit_zero _ _ hz2 _ _ _).trans (by sl_unfold_run_names; simp only [View.readCov_unit_zero (S := S1x1) _ hz2, View.readCov_unit_zero (S := S1x64) _ hz2, View.readAt_eq_ld, View.ld_unit_zero (S := S512x128) hz2, View.ld_unit_zero (S := S64x128) hz2, View.ld_unit_zero (S := S1x64) hz2, View.ld_unit_zero (S := S1x1) hz2, cond_true, cond_false])
      | rfl

/-- What the body reads of an input at point `t` is that input's block `t` of the array. -/
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

theorem PhiA2_eq (c : Dev nD) :
    (Pipeline.ΦA spec2 c : sProp 𝕄)
      = iprop(iprop(iprop((∃ d, owns c.tc scS2 fullShare d) ∗ (∃ d, owns c.tc scD2 fullShare d))
          ∗ rest2 c)
          ∗ ∃ r, prngReg c r) := by
  unfold Pipeline.ΦA; rw [scopedRest2_split]; simp only [scS2, scD2, owns_whole]; try rfl

theorem accS2_succ (c : Dev nD) (t : Fin cfg2.N) :
    accS2 V c (t.val + 1) = k2_pay1 (k2_pay10 (iblk2 V c 0 t) (iblk2 V c 4 t)) (accS2 V c t.val) := by
  rw [accS2, pt2_val]
theorem accD2_succ (c : Dev nD) (t : Fin cfg2.N) :
    accD2 V c (t.val + 1) = k2_pay2 (k2_pay9 (iblk2 V c 0 t)) (k2_pay10 (iblk2 V c 0 t) (iblk2 V c 4 t)) (accD2 V c t.val) := by
  rw [accD2, pt2_val]

/-- The invariant holds the two running sums: anything before the first tile, where they restart from zero, the sums so far after it. -/
theorem Phi2_open (c : Dev nD) (n : ℕ) :
    Phi2 V c n ⊢ iprop(∃ dS dD, ⌜(bif decide (n = 0) then k2_pay4 else dS) = accS2 V c n ∧ (bif decide (n = 0) then k2_pay5 else dD) = accD2 V c n⌝
      ∗ owns c.tc scS2 fullShare dS ∗ owns c.tc scD2 fullShare dD
      ∗ rest2 c
      ∗ ∃ r, prngReg c r) := by
  cases n with
  | zero =>
    show Pipeline.ΦA spec2 c ⊢ _
    rw [PhiA2_eq]
    iintro ⟨⟨⟨⟨%dS, HS⟩, ⟨%dD, HD⟩⟩, Hr⟩, Hg⟩
    iexists dS, dD; iframe; ipureintro; exact ⟨rfl, rfl⟩
  | succ n =>
    rw [Phi2]
    iintro ⟨HS, HD, Hr, Hg⟩
    iexists _, _; iframe; ipureintro; exact ⟨rfl, rfl⟩

/-- The mask row after point `t`: the thresholded score of the whole batch's sums at the last point, untouched before it. -/
theorem leaves2_7 (c : Dev nD) (t : Fin cfg2.N) (d) :
    owns c.tc (st2_7 t) fullShare (bif decide (t.val = 15) then k2_pay3 (k2_pay7 (iblk2 V c 5 t)) (accS2 V c (t.val + 1)) (accD2 V c (t.val + 1)) else (dat2 V c).before 7 t d)
      ⊢ (dat2 V c).leavesExact 7 t := by
  by_cases h : t.val = 15
  · rw [h, decide_eq_true rfl, cond_true]; unfold Dat.leavesExact; rw [live2_7 t h, after2_7]
  · rw [decide_eq_false h, cond_false, Dat.leavesExact_idle _ 7 t (idle2_7 t h).1 (idle2_7 t h).2]
    iintro H; iexists d; iexact H

/-- The body at any point: the invariant lends it the two sums, and one run covers the first, the middle and the last points. -/
theorem sound_body2 (c : Dev nD) (t : Fin cfg2.N) :
    iprop(Phi2 V c t.val ∗ (dat2 V c).owesAt () t.castSucc
      ∗ (∃ d, owns c.tc (st2_0 t) fullShare ((dat2 V c).before 0 t d))
      ∗ (∃ d, owns c.tc (st2_1 t) fullShare ((dat2 V c).before 1 t d))
      ∗ (∃ d, owns c.tc (st2_2 t) fullShare ((dat2 V c).before 2 t d))
      ∗ (∃ d, owns c.tc (st2_3 t) fullShare ((dat2 V c).before 3 t d))
      ∗ (∃ d, owns c.tc (st2_4 t) fullShare ((dat2 V c).before 4 t d))
      ∗ (∃ d, owns c.tc (st2_5 t) fullShare ((dat2 V c).before 5 t d))
      ∗ (∃ d, owns c.tc (st2_6 t) fullShare ((dat2 V c).before 6 t d))
      ∗ (∃ d, owns c.tc (st2_7 t) fullShare ((dat2 V c).before 7 t d)))
    ⊢ wp frame (wpE (defs₀ (F := F)) Variants.none c none) Set.univ (bodyAt2 t) (fun _ =>
      iprop(Phi2 V c (t.val + 1) ∗ (dat2 V c).owesAt () t.castSucc
      ∗ owns c.tc (st2_0 t) fullShare (iblk2 V c 0 t)
      ∗ owns c.tc (st2_1 t) fullShare (iblk2 V c 1 t)
      ∗ owns c.tc (st2_2 t) fullShare (iblk2 V c 2 t)
      ∗ owns c.tc (st2_3 t) fullShare (iblk2 V c 3 t)
      ∗ owns c.tc (st2_4 t) fullShare (iblk2 V c 4 t)
      ∗ owns c.tc (st2_5 t) fullShare (iblk2 V c 5 t)
      ∗ owns c.tc (st2_6 t) fullShare (k2_pay8 (iblk2 V c 0 t) (iblk2 V c 1 t) (iblk2 V c 2 t) (iblk2 V c 3 t))
      ∗ (dat2 V c).leavesExact 7 t)) := by
  simp only [before2_0, before2_1, before2_2, before2_3, before2_4, before2_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  icases (Phi2_open V c t.val) $$ HΦ with ⟨%dS, %dD, %ha, HS, HD, Hr, Hg⟩
  iapply run2 c Set.univ (grid2.coords t) (st2_0 t) _ (st2_1 t) _ (st2_2 t) _ (st2_3 t) _ (st2_4 t) _ (st2_5 t) _ (st2_6 t) _ (st2_7 t) _ scS2 _ scD2 _
    (decide (t.val = 0)) (decide (t.val = 15)) (hcond2 t).1 (hcond2 t).2
    (fun h h' => by have := of_decide_eq_true h; have := of_decide_eq_true h'; omega)
    (iblk2 V c 0 t) (iblk2 V c 1 t) (iblk2 V c 2 t) (iblk2 V c 3 t) (iblk2 V c 4 t) (iblk2 V c 5 t) ((dat2 V c).before 6 t d6) ((dat2 V c).before 7 t d7) dS (accS2 V c (t.val + 1)) dD (accD2 V c (t.val + 1))
    ((accS2_succ V c t).trans (congrArg _ ha.1.symm)) ((accD2_succ V c t).trans (congrArg _ ha.2.symm)) _
  iframe H0 H1 H2 H3 H4 H5 H6 H7 HS HD
  iintro ⟨H0, H1, H2, H3, H4, H5, H6, H7, HS, HD⟩
  rw [Phi2]
  iframe
  iapply (leaves2_7 V c t d7) $$ H7

theorem body_obligation2 (c : Dev nD) : BodyObligation (dat2 (F := F) V c) (defs₀ (F := F)) Variants.none () Set.univ := fun t => by
  rw [bigSep_W2, bigSep_W2]
  exact sound_body2 V c t

/-- After the last point the sums' contents are forgotten again. -/
theorem Phi2_last (c : Dev nD) : (dat2 V c).Φ (Fin.last cfg2.N) ⊢ (Pipeline.ΦA spec2 c : sProp 𝕄) := by
  rw [show (dat2 V c).Φ (Fin.last cfg2.N) = Phi2 V c (15 + 1) from rfl, Phi2, PhiA2_eq]
  iintro ⟨HS, HD, Hr, Hg⟩
  iframe
  isplitl [HS] <;> (iexists _; iassumption)

end Region2

end Cert.Kernel.Hand

end
-- ==== Proof.K.Reg3.lean ====
import proofs.«131279_j13907104104967_1_alg».proof.Proof.Gen.Kernel.Launch
import proofs.«131279_j13907104104967_1_alg».proof.Proof.Gen.Kernel.Skeleton
import proofs.«131279_j13907104104967_1_alg».proof.Proof.Gen.Kernel.Points
import proofs.«131279_j13907104104967_1_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The last layer's call: each tile of 1024 rows of the output is the linear layer of that tile of the input. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay1 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_3 (c : Dev nD) (t : Fin cfg3.N) :
    (dat3 V c).after 3 t = k3_pay1 (iblk3 V c 0 t) (iblk3 V c 1 t) (iblk3 V c 2 t) := by dsimp only [dat3]
theorem Phi3 (c : Dev nD) (i : Fin (cfg3.N + 1)) : (dat3 V c).Φ i = Pipeline.ΦA spec3 c := rfl
theorem owed3 (c : Dev nD) (t) : (dat3 V c).owed t = 0 := rfl
theorem q3 (c : Dev nD) (w : Fin cfg3.W) : (dat3 V c).q w = fullShare := rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d

/-- The body on whole buffers: the output buffer ends at the linear layer of the three inputs, which are left as they were. -/
theorem run3 (c : Dev nD) (E : Set ℕ) (i : grid3.Coords) (arg1 harg1 arg2 harg2 arg3 harg3 arg4 harg4) (x0 x1 x2) (K : PUnit → sProp 𝕄) :
    iprop(owns c.tc arg1 fullShare x0 ∗ owns c.tc arg2 fullShare x1 ∗ owns c.tc arg3 fullShare x2 ∗ (∃ d, owns c.tc arg4 fullShare d)
        ∗ (iprop(owns c.tc arg1 fullShare x0 ∗ owns c.tc arg2 fullShare x1 ∗ owns c.tc arg3 fullShare x2
            ∗ owns c.tc arg4 fullShare (k3_pay1 x0 x1 x2)) -∗ K ⟨⟩))
      ⊢ wp frame (wpE (defs₀ (F := F)) Variants.none c none) E (cc3__final_layer_kernel i arg1 harg1 arg2 harg2 arg3 harg3 arg4 harg4) K := by
  simp only [cc3__final_layer_kernel_eq_skeleton]; unfold cc3__final_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; swap; isplitl [H1]; swap; isplitl [H2]; swap
  all_goals (iexists _; isplitr; swap; iassumption; ipureintro)
  all_goals first
    | rfl
    | (rw [read_writes_cons_unit_zero _ _ hz2]; simp only [readAt_unit_zero (S := S1024x64) _ _ hz2, readAt_unit_zero (S := S1000x64) _ _ hz2, readAt_unit_zero (S := S1x1000) _ _ hz2])

theorem body_obligation3 (c : Dev nD) : BodyObligation (dat3 (F := F) V c) (defs₀ (F := F)) Variants.none () Set.univ := fun t => by
  rw [bigSep_W3, bigSep_W3]
  show iprop(Pipeline.ΦA spec3 c ∗ (dat3 V c).owesAt () t.castSucc
      ∗ (∃ d, owns c.tc (st3_0 t) fullShare ((dat3 V c).before 0 t d))
      ∗ (∃ d, owns c.tc (st3_1 t) fullShare ((dat3 V c).before 1 t d))
      ∗ (∃ d, owns c.tc (st3_2 t) fullShare ((dat3 V c).before 2 t d))
      ∗ (∃ d, owns c.tc (st3_3 t) fullShare ((dat3 V c).before 3 t d)))
    ⊢ wp frame (wpE (defs₀ (F := F)) Variants.none c none) Set.univ (bodyAt3 t) (fun _ =>
      iprop(Pipeline.ΦA spec3 c ∗ (dat3 V c).owesAt () t.castSucc
      ∗ owns c.tc (st3_0 t) fullShare (iblk3 V c 0 t)
      ∗ owns c.tc (st3_1 t) fullShare (iblk3 V c 1 t)
      ∗ owns c.tc (st3_2 t) fullShare (iblk3 V c 2 t)
      ∗ owns c.tc (st3_3 t) fullShare (k3_pay1 (iblk3 V c 0 t) (iblk3 V c 1 t) (iblk3 V c 2 t))))
  simp only [before3_0, before3_1, before3_2]
  iintro ⟨HΦ, Ho, ⟨%d0, H0⟩, ⟨%d1, H1⟩, ⟨%d2, H2⟩, ⟨%d3, H3⟩⟩
  iapply run3 c Set.univ (grid3.coords t) (st3_0 t) _ (st3_1 t) _ (st3_2 t) _ (st3_3 t) _ (iblk3 V c 0 t) (iblk3 V c 1 t) (iblk3 V c 2 t) _
  iframe H0 H1 H2
  isplitl [H3]; · iexists _; iexact H3
  iintro ⟨H0, H1, H2, H3⟩
  iframe

end Cert.Kernel.Hand

end
-- ==== Proof.K.Run.lean ====
import proofs.«131279_j13907104104967_1_alg».proof.Proof.K.Reg0
import proofs.«131279_j13907104104967_1_alg».proof.Proof.K.Reg1
import proofs.«131279_j13907104104967_1_alg».proof.Proof.K.Reg2
import proofs.«131279_j13907104104967_1_alg».proof.Proof.K.Reg3
import proofs.«131279_j13907104104967_1_alg».proof.Proof.Gen.Kernel.Regions

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb

/-- A buffer that is no output window's array has the same contents after the region as before it. -/
theorem withArrays_keep {cfg : Cfg sig Λ₀} {c : Dev nD} (d : Dat τ (Elt F) Unit ℕ (UR sig nD τ) ℕ cfg c)
    (hinj : Function.Injective (Pipeline.arrRef cfg.spec)) (W : Valuation τ sig (Elt F))
    (hA : ∀ w, d.A w = W (Proc.devRef .tc (Pipeline.arrRef cfg.spec w))) (b : Ref sig .tc)
    (hb : ∀ w, Pipeline.arrRef cfg.spec w = b → (cfg.win w).isOut = false) :
    Pipeline.withArrays cfg.spec c W (fun w => d.arrAt w cfg.N) (Proc.devRef .tc b) = W (Proc.devRef .tc b) := by
  by_cases h : ∃ w, Pipeline.arrRef cfg.spec w = b
  · obtain ⟨w, rfl⟩ := h
    rw [Pipeline.withArrays_arr _ hinj, d.arrAt_in w (hb w rfl), hA]
  · exact Pipeline.withArrays_of_ne _ c _ _ b fun w e => h ⟨w, e⟩

abbrev args : List (Ref sig .tc) := [main_arg0, main_arg1, main_arg2, main_arg3, main_arg4, main_arg5, main_arg6, main_arg7, main_arg8, main_arg9, main_arg10, main_arg11, main_arg12, main_arg13, main_arg14]

/-- An argument holds its launch contents at the end: no host operation writes it and no region has it as an output array. -/
theorem W8_main_arg (c : Dev nD) (b : Ref sig .tc) (hb : b ∈ args) :
    W8 m ρ c (Proc.devRef .tc b) = m ((c : Thread nD τ).loc b) := by
  have h : (b ∉ hostOps0_W ∧ b ∉ hostOps1_W ∧ b ∉ hostOps2_W ∧ b ∉ hostOps3_W)
      ∧ (∀ w, Pipeline.arrRef cfg0.spec w = b → (cfg0.win w).isOut = false)
      ∧ (∀ w, Pipeline.arrRef cfg1.spec w = b → (cfg1.win w).isOut = false)
      ∧ (∀ w, Pipeline.arrRef cfg2.spec w = b → (cfg2.win w).isOut = false)
      ∧ ∀ w, Pipeline.arrRef cfg3.spec w = b → (cfg3.win w).isOut = false := by
    revert b; decide
  obtain ⟨⟨g0, g1, g2, g3⟩, k0, k1, k2, k3⟩ := h
  exact (withArrays_keep (dat3 (V7 m ρ) c) launch3.win.arr_inj _ (A_eq3 (V7 m ρ) c) b k3).trans <|
    (StableHlo.after_of_writes_sub hostOps3 _ hostOps3_writes g3).trans <|
    (withArrays_keep (dat2 (V5 m ρ) c) launch2.win.arr_inj _ (A_eq2 (V5 m ρ) c) b k2).trans <|
    (StableHlo.after_of_writes_sub hostOps2 _ hostOps2_writes g2).trans <|
    (withArrays_keep (dat1 (V3 m ρ) c) launch1.win.arr_inj _ (A_eq1 (V3 m ρ) c) b k1).trans <|
    (StableHlo.after_of_writes_sub hostOps1 _ hostOps1_writes g1).trans <|
    (withArrays_keep (dat0 (V1 m ρ) c) launch0.win.arr_inj _ (A_eq0 (V1 m ρ) c) b k0).trans
    (StableHlo.after_of_writes_sub hostOps0 _ hostOps0_writes g0)

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region `p` as one step of the program: the buffers at `Wi` before it; after it the same, with the region's arrays at their final contents. -/
def reg (p : Fin 4) (lf : Pipeline.LaunchFacts (nD := nD) (τ := τ) cfgs p) (Wi : Dev nD → Valuation τ sig (Elt F))
    (hb : ∀ c, BodyObligation (pdats m ρ p c) (defs₀ (F := F)) 𝒱₀ () Set.univ)
    (ho : ∀ c t, (pdats m ρ p c).owed t = 0) (hq : ∀ c w, (pdats m ρ p c).q w = fullShare)
    (hr : ∀ c, (pdats m ρ p c).recorded 0 = Set.univ)
    (hA : ∀ c w, (pdats m ρ p c).A w = Wi c (Proc.devRef .tc (Pipeline.arrRef (cfgs p).spec w)))
    (h0 : ∀ c, (pdats m ρ p c).Φ 0 = Pipeline.ΦA (cfgs p).spec c)
    (hN : ∀ c, (pdats m ρ p c).Φ (Fin.last _) ⊢ (Pipeline.ΦA (cfgs p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Wi c) ∗ R c)
  post c := iprop(StableHlo.held (c : Thread nD τ) (Pipeline.ucRefs τ sig)
    (Pipeline.withArrays (cfgs p).spec c (Wi c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin Pipeline.Dat.bound; rw [ho c, hr c]
    icases HO with ⟨%W, HO⟩; iexists W; isplitr; · ipureintro; exact fun _ _ => Or.inl trivial
    iexact HO
  hin c := by
    rw [h0 c]; unfold Pipeline.ΦA
    iintro ⟨Hp, -, Hr⟩
    iframe
  hout c := by
    rw [Pipeline.ownSems0_none]
    refine (hN c).trans ?_
    unfold Pipeline.ΦA
    iintro ⟨Hr, Hp⟩
    iframe
    iempintro
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => Wi c b)
      (fun b => Pipeline.withArrays (cfgs p).spec c (Wi c) (fun w => (pdats m ρ p c).arrAt w (cfgs p).N) b)
      ((pdats m ρ p c).arrAt · (cfgs p).N)
      (fun w => (Pipeline.withArrays_arr (cfgs p).spec lf.win.arr_inj c (Wi c) ((pdats m ρ p c).arrAt · (cfgs p).N) w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho c]
    icases HO with ⟨%W, -, HO⟩; iexists W; iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .region (reg m ρ 0 launch0 (W1 m ρ) (body_obligation0 (V1 m ρ)) (owed0 (V1 m ρ)) (q0 (V1 m ρ)) (fun _ => rfl)
      (A_eq0 (V1 m ρ)) (Phi0_zero (V1 m ρ)) (Phi0_last (V1 m ρ))),
    .host (hseg hostOps1 hostOps1_sub hostOps1_fresh (W2 m ρ)),
    .region (reg m ρ 1 launch1 (W3 m ρ) (body_obligation1 (V3 m ρ)) (owed1 (V3 m ρ)) (q1 (V3 m ρ)) (fun _ => rfl)
      (A_eq1 (V3 m ρ)) (Phi1_zero (V3 m ρ)) (Phi1_last (V3 m ρ))),
    .host (hseg hostOps2 hostOps2_sub hostOps2_fresh (W4 m ρ)),
    .region (reg m ρ 2 launch2 (W5 m ρ) (body_obligation2 (V5 m ρ)) (owed2 (V5 m ρ)) (q2 (V5 m ρ)) (fun _ => rfl)
      (A_eq2 (V5 m ρ)) (Phi2_zero (V5 m ρ)) (Phi2_last (V5 m ρ))),
    .host (hseg hostOps3 hostOps3_sub hostOps3_fresh (W6 m ρ)),
    .region (reg m ρ 3 launch3 (W7 m ρ) (body_obligation3 (V7 m ρ)) (owed3 (V7 m ρ)) (q3 (V7 m ρ)) (fun _ => rfl)
      (A_eq3 (V7 m ρ)) (fun c => Phi3 (V7 m ρ) c 0) fun c => Entails.of_eq (Phi3 (V7 m ρ) c (Fin.last _))) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W8 m ρ c) ∗ ∃ r, prngReg c r))
    (hch := ⟨fun _ => .rfl, fun _ => .rfl, fun _ => .rfl, fun _ => .rfl, fun _ => .rfl, fun _ => .rfl, fun _ => .rfl,
      fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- Every argument array holds its launch contents. -/
abbrev ArgsKept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)

/-- At the last contents each argument array reads as launched. -/
theorem kept_args {r : PUnit × MemSt nD τ sig (Elt F)}
    (h : ∀ c : Dev nD, ∀ b ∈ Pipeline.ucRefs τ sig, r.2.mem (((c : Thread nD τ)).1, b) = W8 m ρ c b) (c : Dev nD) :
    ArgsKept m r.2 c := by
  have k (b : Ref sig .tc) (hb : b ∈ args) : r.2.mem ((c.tc : Thread nD τ).loc b) = m ((c.tc : Thread nD τ).loc b) :=
    (h c _ (mem_uc b (by revert b; decide))).trans (W8_main_arg m ρ c b hb)
  and_intros <;> exact k _ (by decide)

theorem frame : θ_run defs (onTc (τ := τ) (main (F := F))) ⟨m, fun _ => 0, ρ⟩ fun r => ∀ c : Dev nD, ArgsKept m r.2 c :=
  (θ_run defs _ _).mono (fun r h c => kept_args m ρ h c) (run_all m ρ)

end Cert.Kernel.Hand

end
-- ==== Proof.KI.Reg0.lean ====
import proofs.«131279_j13907104104967_1_alg».proof.Proof.Gen.KernelIdeal.Launch
import proofs.«131279_j13907104104967_1_alg».proof.Proof.Gen.KernelIdeal.Skeleton
import proofs.«131279_j13907104104967_1_alg».proof.Proof.Gen.KernelIdeal.Points
import proofs.«131279_j13907104104967_1_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Whole

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def pt0 (n : ℕ) : Fin cfg0.N := ⟨min n 15, by rw [show cfg0.N = 16 from N_0]; omega⟩

theorem pt0_val (t : Fin cfg0.N) : pt0 t.val = t := by
  have h : t.val < 16 := lt_of_lt_of_eq t.isLt (show cfg0.N = 16 from N_0)
  apply Fin.ext; show min t.val 15 = t.val; omega

def accS0 (c : Dev nD) : ℕ → Vec F S1x1 .f32
  | 0 => k0_pay4
  | n + 1 => k0_pay1 (k0_pay10 (iblk0 V c 0 (pt0 n)) (iblk0 V c 4 (pt0 n))) (accS0 c n)

def accD0 (c : Dev nD) : ℕ → Vec F S1x256 .f32
  | 0 => k0_pay5
  | n + 1 => k0_pay2 (k0_pay8 (iblk0 V c 0 (pt0 n))) (k0_pay9 (iblk0 V c 0 (pt0 n)) (iblk0 V c 4 (pt0 n))) (accD0 c n)

abbrev scS0 : Memref sig .tc .vmem S1x1 .f32 := Memref.whole cc0_scratch0
abbrev scD0 : Memref sig .tc .vmem S1x256 .f32 := Memref.whole cc0_scratch1

abbrev rest0 (c : Dev nD) : sProp 𝕄 :=
  Pipeline.scopedRestBut (Ix := Unit) (Name := ℕ) (U := UR sig nD τ) (Lvl := ℕ) (Val := Elt F) spec0 c [cc0_scratch0, cc0_scratch1]

def Phi0 (c : Dev nD) : ℕ → sProp 𝕄
  | 0 => Pipeline.ΦA spec0 c
  | n + 1 => iprop(owns c.tc scS0 fullShare (accS0 V c (n + 1))
      ∗ owns c.tc scD0 fullShare (accD0 V c (n + 1))
      ∗ rest0 c
      ∗ ∃ r, prngReg c r)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay7 (iblk0 V c 0 t) (iblk0 V c 1 t) (iblk0 V c 2 t) (iblk0 V c 3 t)
    | ⟨7, _⟩ => k0_pay3 (k0_pay6 (iblk0 V c 5 t)) (accS0 V c 16) (accD0 V c 16)
  Φ t := Phi0 V c t.val
  q _ := fullShare
  owed _ := 0

theorem A_eq0 (c : Dev nD) (w : Fin cfg0.W) : (dat0 V c).A w = V c (Pipeline.arrRef spec0 w) := by
  dsimp only [dat0]
theorem Phi0_zero (c : Dev nD) : (dat0 V c).Φ 0 = Pipeline.ΦA spec0 c := rfl
theorem owed0 (c : Dev nD) (t) : (dat0 V c).owed t = 0 := rfl
theorem q0 (c : Dev nD) (w) : (dat0 V c).q w = fullShare := rfl
theorem after0_6 (c : Dev nD) (t : Fin cfg0.N) :
    (dat0 V c).after 6 t = k0_pay7 (iblk0 V c 0 t) (iblk0 V c 1 t) (iblk0 V c 2 t) (iblk0 V c 3 t) := by dsimp only [dat0]
theorem after0_7 (c : Dev nD) (t : Fin cfg0.N) :
    (dat0 V c).after 7 t = k0_pay3 (k0_pay6 (iblk0 V c 5 t)) (accS0 V c 16) (accD0 V c 16) := by dsimp only [dat0]

abbrev cond0_1 (i : grid0.Coords) : Prop :=
  (Scalar.cmpi .ne (Scalar.extui (Scalar.cmpi .eq (BitVec.ofNat 32 (i 0).val) 0#32)) 0#32) = 1#1
abbrev cond0_2 (i : grid0.Coords) : Prop := k0_cond2 i = 1#1

theorem hcond0 : ∀ t : Fin cfg0.N, (cond0_1 (grid0.coords t) ↔ decide (t.val = 0) = true) ∧ (cond0_2 (grid0.coords t) ↔ decide (t.val = 15) = true) :=
  (by decide +kernel : ∀ t : Fin grid0.N, (cond0_1 (grid0.coords t) ↔ decide (t.val = 0) = true) ∧ (cond0_2 (grid0.coords t) ↔ decide (t.val = 15) = true))

theorem idle0_7 : ∀ t : Fin cfg0.N, t.val ≠ 15 → cfg0.idle 7 (grid0.coords t) = true ∧ (cfg0.win 7).flush t = false := by decide +kernel
theorem live0_7 : ∀ t : Fin cfg0.N, t.val = 15 → cfg0.idle 7 (grid0.coords t) = false := by decide +kernel

/-- One point of the body: `b1` says it is the first (the sums restart from zero), `b2` that it is the last (the mask row is computed from the sums). -/
theorem run0 (c : Dev nD) (E : Set ℕ) (i : grid0.Coords) (arg1 harg1 arg2 harg2 arg3 harg3 arg4 harg4 arg5 harg5 arg6 harg6 arg7 harg7 arg8 harg8 arg9 harg9 arg10 harg10)
    (b1 b2 : Bool) (h1 : cond0_1 i ↔ b1 = true) (h2 : cond0_2 i ↔ b2 = true) (hx : b1 = true → b2 = true → False)
    (x0 x1 x2 x3 x4 x5 d6 x7 aS aS' aD aD')
    (hS : aS' = k0_pay1 (k0_pay10 x0 x4) (bif b1 then k0_pay4 else aS)) (hD : aD' = k0_pay2 (k0_pay8 x0) (k0_pay9 x0 x4) (bif b1 then k0_pay5 else aD)) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ owns c.tc arg7 fullShare d6 ∗ owns c.tc arg8 fullShare x7
        ∗ owns c.tc arg9 fullShare aS ∗ owns c.tc arg10 fullShare aD
        ∗ (iprop(owns c.tc arg1 fullShare x0 ∗ owns c.tc arg2 fullShare x1 ∗ owns c.tc arg3 fullShare x2
            ∗ owns c.tc arg4 fullShare x3 ∗ owns c.tc arg5 fullShare x4 ∗ owns c.tc arg6 fullShare x5
            ∗ owns c.tc arg7 fullShare (k0_pay7 x0 x1 x2 x3) ∗ owns c.tc arg8 fullShare (bif b2 then k0_pay3 (k0_pay6 x5) aS' aD' else x7)
            ∗ owns c.tc arg9 fullShare aS' ∗ owns c.tc arg10 fullShare aD') -∗ K ⟨⟩))
      ⊢ wp frame (wpE (defs₀ (F := F)) Variants.none c none) E (cc0__hebbian_layer_kernel i arg1 harg1 arg2 harg2 arg3 harg3 arg4 harg4 arg5 harg5 arg6 harg6 arg7 harg7 arg8 harg8 arg9 harg9 arg10 harg10) K := by
  simp only [cc0__hebbian_layer_kernel_eq_skeleton]; unfold cc0__hebbian_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, ⟨%f8, %hf8, H8⟩, ⟨%f9, %hf9, H9⟩, ⟨%f10, %hf10, H10⟩, Hk⟩
  subst hf1 hf2 hf3 hf4 hf5 hf6 hf8 hf9 hf10 hS hD
  cases b1 <;> cases b2 <;> first | exact (hx rfl rfl).elim | skip
  all_goals
    simp only [eq_self, iff_true, Bool.false_eq_true, iff_false] at h1 h2
    sl_exec (disch := first | exact h1 | exact h2)
    sl_step
    iapply Hk
    isplitl [H1]; swap; isplitl [H2]; swap; isplitl [H3]; swap; isplitl [H4]; swap; isplitl [H5]; swap
    isplitl [H6]; swap; isplitl [H7]; swap; isplitl [H8]; swap; isplitl [H9]; swap
    all_goals (iexists _; isplitr; swap; iassumption; ipureintro)
    all_goals first
      | exact (read_writes_cons_unit_zero _ _ hz2 _ _ _).trans (by sl_unfold_run_names; simp only [View.readCov_unit_zero (S := S1x1) _ hz2, View.readCov_unit_zero (S := S1x256) _ hz2, View.readAt_eq_ld, View.ld_unit_zero (S := S512x1024) hz2, View.ld_unit_zero (S := S256x1024) hz2, View.ld_unit_zero (S := S1x256) hz2, View.ld_unit_zero (S := S1x1) hz2, cond_true, cond_false])
      | rfl

/-- What the body reads of an input at point `t` is that input's block `t` of the array. -/
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d

theorem PhiA0_eq (c : Dev nD) :
    (Pipeline.ΦA spec0 c : sProp 𝕄)
      = iprop(iprop(iprop((∃ d, owns c.tc scS0 fullShare d) ∗ (∃ d, owns c.tc scD0 fullShare d))
          ∗ rest0 c)
          ∗ ∃ r, prngReg c r) := by
  unfold Pipeline.ΦA; rw [scopedRest0_split]; simp only [scS0, scD0, owns_whole]; try rfl

theorem accS0_succ (c : Dev nD) (t : Fin cfg0.N) :
    accS0 V c (t.val + 1) = k0_pay1 (k0_pay10 (iblk0 V c 0 t) (iblk0 V c 4 t)) (accS0 V c t.val) := by
  rw [accS0, pt0_val]
theorem accD0_succ (c : Dev nD) (t : Fin cfg0.N) :
    accD0 V c (t.val + 1) = k0_pay2 (k0_pay8 (iblk0 V c 0 t)) (k0_pay9 (iblk0 V c 0 t) (iblk0 V c 4 t)) (accD0 V c t.val) := by
  rw [accD0, pt0_val]

/-- The invariant holds the two running sums: anything before the first tile, where they restart from zero, the sums so far after it. -/
theorem Phi0_open (c : Dev nD) (n : ℕ) :
    Phi0 V c n ⊢ iprop(∃ dS dD, ⌜(bif decide (n = 0) then k0_pay4 else dS) = accS0 V c n ∧ (bif decide (n = 0) then k0_pay5 else dD) = accD0 V c n⌝
      ∗ owns c.tc scS0 fullShare dS ∗ owns c.tc scD0 fullShare dD
      ∗ rest0 c
      ∗ ∃ r, prngReg c r) := by
  cases n with
  | zero =>
    show Pipeline.ΦA spec0 c ⊢ _
    rw [PhiA0_eq]
    iintro ⟨⟨⟨⟨%dS, HS⟩, ⟨%dD, HD⟩⟩, Hr⟩, Hg⟩
    iexists dS, dD; iframe; ipureintro; exact ⟨rfl, rfl⟩
  | succ n =>
    rw [Phi0]
    iintro ⟨HS, HD, Hr, Hg⟩
    iexists _, _; iframe; ipureintro; exact ⟨rfl, rfl⟩

/-- The mask row after point `t`: the thresholded score of the whole batch's sums at the last point, untouched before it. -/
theorem leaves0_7 (c : Dev nD) (t : Fin cfg0.N) (d) :
    owns c.tc (st0_7 t) fullShare (bif decide (t.val = 15) then k0_pay3 (k0_pay6 (iblk0 V c 5 t)) (accS0 V c (t.val + 1)) (accD0 V c (t.val + 1)) else (dat0 V c).before 7 t d)
      ⊢ (dat0 V c).leavesExact 7 t := by
  by_cases h : t.val = 15
  · rw [h, decide_eq_true rfl, cond_true]; unfold Dat.leavesExact; rw [live0_7 t h, after0_7]
  · rw [decide_eq_false h, cond_false, Dat.leavesExact_idle _ 7 t (idle0_7 t h).1 (idle0_7 t h).2]
    iintro H; iexists d; iexact H

/-- The body at any point: the invariant lends it the two sums, and one run covers the first, the middle and the last points. -/
theorem sound_body0 (c : Dev nD) (t : Fin cfg0.N) :
    iprop(Phi0 V c t.val ∗ (dat0 V c).owesAt () t.castSucc
      ∗ (∃ d, owns c.tc (st0_0 t) fullShare ((dat0 V c).before 0 t d))
      ∗ (∃ d, owns c.tc (st0_1 t) fullShare ((dat0 V c).before 1 t d))
      ∗ (∃ d, owns c.tc (st0_2 t) fullShare ((dat0 V c).before 2 t d))
      ∗ (∃ d, owns c.tc (st0_3 t) fullShare ((dat0 V c).before 3 t d))
      ∗ (∃ d, owns c.tc (st0_4 t) fullShare ((dat0 V c).before 4 t d))
      ∗ (∃ d, owns c.tc (st0_5 t) fullShare ((dat0 V c).before 5 t d))
      ∗ (∃ d, owns c.tc (st0_6 t) fullShare ((dat0 V c).before 6 t d))
      ∗ (∃ d, owns c.tc (st0_7 t) fullShare ((dat0 V c).before 7 t d)))
    ⊢ wp frame (wpE (defs₀ (F := F)) Variants.none c none) Set.univ (bodyAt0 t) (fun _ =>
      iprop(Phi0 V c (t.val + 1) ∗ (dat0 V c).owesAt () t.castSucc
      ∗ owns c.tc (st0_0 t) fullShare (iblk0 V c 0 t)
      ∗ owns c.tc (st0_1 t) fullShare (iblk0 V c 1 t)
      ∗ owns c.tc (st0_2 t) fullShare (iblk0 V c 2 t)
      ∗ owns c.tc (st0_3 t) fullShare (iblk0 V c 3 t)
      ∗ owns c.tc (st0_4 t) fullShare (iblk0 V c 4 t)
      ∗ owns c.tc (st0_5 t) fullShare (iblk0 V c 5 t)
      ∗ owns c.tc (st0_6 t) fullShare (k0_pay7 (iblk0 V c 0 t) (iblk0 V c 1 t) (iblk0 V c 2 t) (iblk0 V c 3 t))
      ∗ (dat0 V c).leavesExact 7 t)) := by
  simp only [before0_0, before0_1, before0_2, before0_3, before0_4, before0_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  icases (Phi0_open V c t.val) $$ HΦ with ⟨%dS, %dD, %ha, HS, HD, Hr, Hg⟩
  iapply run0 c Set.univ (grid0.coords t) (st0_0 t) _ (st0_1 t) _ (st0_2 t) _ (st0_3 t) _ (st0_4 t) _ (st0_5 t) _ (st0_6 t) _ (st0_7 t) _ scS0 _ scD0 _
    (decide (t.val = 0)) (decide (t.val = 15)) (hcond0 t).1 (hcond0 t).2
    (fun h h' => by have := of_decide_eq_true h; have := of_decide_eq_true h'; omega)
    (iblk0 V c 0 t) (iblk0 V c 1 t) (iblk0 V c 2 t) (iblk0 V c 3 t) (iblk0 V c 4 t) (iblk0 V c 5 t) ((dat0 V c).before 6 t d6) ((dat0 V c).before 7 t d7) dS (accS0 V c (t.val + 1)) dD (accD0 V c (t.val + 1))
    ((accS0_succ V c t).trans (congrArg _ ha.1.symm)) ((accD0_succ V c t).trans (congrArg _ ha.2.symm)) _
  iframe H0 H1 H2 H3 H4 H5 H6 H7 HS HD
  iintro ⟨H0, H1, H2, H3, H4, H5, H6, H7, HS, HD⟩
  rw [Phi0]
  iframe
  iapply (leaves0_7 V c t d7) $$ H7

theorem body_obligation0 (c : Dev nD) : BodyObligation (dat0 (F := F) V c) (defs₀ (F := F)) Variants.none () Set.univ := fun t => by
  rw [bigSep_W0, bigSep_W0]
  exact sound_body0 V c t

/-- After the last point the sums' contents are forgotten again. -/
theorem Phi0_last (c : Dev nD) : (dat0 V c).Φ (Fin.last cfg0.N) ⊢ (Pipeline.ΦA spec0 c : sProp 𝕄) := by
  rw [show (dat0 V c).Φ (Fin.last cfg0.N) = Phi0 V c (15 + 1) from rfl, Phi0, PhiA0_eq]
  iintro ⟨HS, HD, Hr, Hg⟩
  iframe
  isplitl [HS] <;> (iexists _; iassumption)

end Region0

end Cert.KernelIdeal.Hand

end
-- ==== Proof.KI.Reg1.lean ====
import proofs.«131279_j13907104104967_1_alg».proof.Proof.Gen.KernelIdeal.Launch
import proofs.«131279_j13907104104967_1_alg».proof.Proof.Gen.KernelIdeal.Skeleton
import proofs.«131279_j13907104104967_1_alg».proof.Proof.Gen.KernelIdeal.Points
import proofs.«131279_j13907104104967_1_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Whole

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def pt1 (n : ℕ) : Fin cfg1.N := ⟨min n 15, by rw [show cfg1.N = 16 from N_1]; omega⟩

theorem pt1_val (t : Fin cfg1.N) : pt1 t.val = t := by
  have h : t.val < 16 := lt_of_lt_of_eq t.isLt (show cfg1.N = 16 from N_1)
  apply Fin.ext; show min t.val 15 = t.val; omega

def accS1 (c : Dev nD) : ℕ → Vec F S1x1 .f32
  | 0 => k1_pay4
  | n + 1 => k1_pay1 (k1_pay10 (iblk1 V c 0 (pt1 n)) (iblk1 V c 4 (pt1 n))) (accS1 c n)

def accD1 (c : Dev nD) : ℕ → Vec F S1x128 .f32
  | 0 => k1_pay5
  | n + 1 => k1_pay2 (k1_pay9 (iblk1 V c 0 (pt1 n))) (k1_pay10 (iblk1 V c 0 (pt1 n)) (iblk1 V c 4 (pt1 n))) (accD1 c n)

abbrev scS1 : Memref sig .tc .vmem S1x1 .f32 := Memref.whole cc1_scratch0
abbrev scD1 : Memref sig .tc .vmem S1x128 .f32 := Memref.whole cc1_scratch1

abbrev rest1 (c : Dev nD) : sProp 𝕄 :=
  Pipeline.scopedRestBut (Ix := Unit) (Name := ℕ) (U := UR sig nD τ) (Lvl := ℕ) (Val := Elt F) spec1 c [cc1_scratch0, cc1_scratch1]

def Phi1 (c : Dev nD) : ℕ → sProp 𝕄
  | 0 => Pipeline.ΦA spec1 c
  | n + 1 => iprop(owns c.tc scS1 fullShare (accS1 V c (n + 1))
      ∗ owns c.tc scD1 fullShare (accD1 V c (n + 1))
      ∗ rest1 c
      ∗ ∃ r, prngReg c r)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay8 (iblk1 V c 0 t) (iblk1 V c 1 t) (iblk1 V c 2 t) (iblk1 V c 3 t)
    | ⟨7, _⟩ => k1_pay3 (k1_pay7 (iblk1 V c 5 t)) (accS1 V c 16) (accD1 V c 16)
  Φ t := Phi1 V c t.val
  q _ := fullShare
  owed _ := 0

theorem A_eq1 (c : Dev nD) (w : Fin cfg1.W) : (dat1 V c).A w = V c (Pipeline.arrRef spec1 w) := by
  dsimp only [dat1]
theorem Phi1_zero (c : Dev nD) : (dat1 V c).Φ 0 = Pipeline.ΦA spec1 c := rfl
theorem owed1 (c : Dev nD) (t) : (dat1 V c).owed t = 0 := rfl
theorem q1 (c : Dev nD) (w) : (dat1 V c).q w = fullShare := rfl
theorem after1_6 (c : Dev nD) (t : Fin cfg1.N) :
    (dat1 V c).after 6 t = k1_pay8 (iblk1 V c 0 t) (iblk1 V c 1 t) (iblk1 V c 2 t) (iblk1 V c 3 t) := by dsimp only [dat1]
theorem after1_7 (c : Dev nD) (t : Fin cfg1.N) :
    (dat1 V c).after 7 t = k1_pay3 (k1_pay7 (iblk1 V c 5 t)) (accS1 V c 16) (accD1 V c 16) := by dsimp only [dat1]

abbrev cond1_1 (i : grid1.Coords) : Prop :=
  (Scalar.cmpi .ne (Scalar.extui (Scalar.cmpi .eq (BitVec.ofNat 32 (i 0).val) 0#32)) 0#32) = 1#1
abbrev cond1_2 (i : grid1.Coords) : Prop := k1_cond2 i = 1#1

theorem hcond1 : ∀ t : Fin cfg1.N, (cond1_1 (grid1.coords t) ↔ decide (t.val = 0) = true) ∧ (cond1_2 (grid1.coords t) ↔ decide (t.val = 15) = true) :=
  (by decide +kernel : ∀ t : Fin grid1.N, (cond1_1 (grid1.coords t) ↔ decide (t.val = 0) = true) ∧ (cond1_2 (grid1.coords t) ↔ decide (t.val = 15) = true))

theorem idle1_7 : ∀ t : Fin cfg1.N, t.val ≠ 15 → cfg1.idle 7 (grid1.coords t) = true ∧ (cfg1.win 7).flush t = false := by decide +kernel
theorem live1_7 : ∀ t : Fin cfg1.N, t.val = 15 → cfg1.idle 7 (grid1.coords t) = false := by decide +kernel

/-- One point of the body: `b1` says it is the first (the sums restart from zero), `b2` that it is the last (the mask row is computed from the sums). -/
theorem run1 (c : Dev nD) (E : Set ℕ) (i : grid1.Coords) (arg1 harg1 arg2 harg2 arg3 harg3 arg4 harg4 arg5 harg5 arg6 harg6 arg7 harg7 arg8 harg8 arg9 harg9 arg10 harg10)
    (b1 b2 : Bool) (h1 : cond1_1 i ↔ b1 = true) (h2 : cond1_2 i ↔ b2 = true) (hx : b1 = true → b2 = true → False)
    (x0 x1 x2 x3 x4 x5 d6 x7 aS aS' aD aD')
    (hS : aS' = k1_pay1 (k1_pay10 x0 x4) (bif b1 then k1_pay4 else aS)) (hD : aD' = k1_pay2 (k1_pay9 x0) (k1_pay10 x0 x4) (bif b1 then k1_pay5 else aD)) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ owns c.tc arg7 fullShare d6 ∗ owns c.tc arg8 fullShare x7
        ∗ owns c.tc arg9 fullShare aS ∗ owns c.tc arg10 fullShare aD
        ∗ (iprop(owns c.tc arg1 fullShare x0 ∗ owns c.tc arg2 fullShare x1 ∗ owns c.tc arg3 fullShare x2
            ∗ owns c.tc arg4 fullShare x3 ∗ owns c.tc arg5 fullShare x4 ∗ owns c.tc arg6 fullShare x5
            ∗ owns c.tc arg7 fullShare (k1_pay8 x0 x1 x2 x3) ∗ owns c.tc arg8 fullShare (bif b2 then k1_pay3 (k1_pay7 x5) aS' aD' else x7)
            ∗ owns c.tc arg9 fullShare aS' ∗ owns c.tc arg10 fullShare aD') -∗ K ⟨⟩))
      ⊢ wp frame (wpE (defs₀ (F := F)) Variants.none c none) E (cc1__hebbian_layer_kernel i arg1 harg1 arg2 harg2 arg3 harg3 arg4 harg4 arg5 harg5 arg6 harg6 arg7 harg7 arg8 harg8 arg9 harg9 arg10 harg10) K := by
  simp only [cc1__hebbian_layer_kernel_eq_skeleton]; unfold cc1__hebbian_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, ⟨%f8, %hf8, H8⟩, ⟨%f9, %hf9, H9⟩, ⟨%f10, %hf10, H10⟩, Hk⟩
  subst hf1 hf2 hf3 hf4 hf5 hf6 hf8 hf9 hf10 hS hD
  cases b1 <;> cases b2 <;> first | exact (hx rfl rfl).elim | skip
  all_goals
    simp only [eq_self, iff_true, Bool.false_eq_true, iff_false] at h1 h2
    sl_exec (disch := first | exact h1 | exact h2)
    sl_step
    iapply Hk
    isplitl [H1]; swap; isplitl [H2]; swap; isplitl [H3]; swap; isplitl [H4]; swap; isplitl [H5]; swap
    isplitl [H6]; swap; isplitl [H7]; swap; isplitl [H8]; swap; isplitl [H9]; swap
    all_goals (iexists _; isplitr; swap; iassumption; ipureintro)
    all_goals first
      | exact (read_writes_cons_unit_zero _ _ hz2 _ _ _).trans (by sl_unfold_run_names; simp only [View.readCov_unit_zero (S := S1x1) _ hz2, View.readCov_unit_zero (S := S1x128) _ hz2, View.readAt_eq_ld, View.ld_unit_zero (S := S512x256) hz2, View.ld_unit_zero (S := S128x256) hz2, View.ld_unit_zero (S := S1x128) hz2, View.ld_unit_zero (S := S1x1) hz2, cond_true, cond_false])
      | rfl

/-- What the body reads of an input at point `t` is that input's block `t` of the array. -/
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d

theorem PhiA1_eq (c : Dev nD) :
    (Pipeline.ΦA spec1 c : sProp 𝕄)
      = iprop(iprop(iprop((∃ d, owns c.tc scS1 fullShare d) ∗ (∃ d, owns c.tc scD1 fullShare d))
          ∗ rest1 c)
          ∗ ∃ r, prngReg c r) := by
  unfold Pipeline.ΦA; rw [scopedRest1_split]; simp only [scS1, scD1, owns_whole]; try rfl

theorem accS1_succ (c : Dev nD) (t : Fin cfg1.N) :
    accS1 V c (t.val + 1) = k1_pay1 (k1_pay10 (iblk1 V c 0 t) (iblk1 V c 4 t)) (accS1 V c t.val) := by
  rw [accS1, pt1_val]
theorem accD1_succ (c : Dev nD) (t : Fin cfg1.N) :
    accD1 V c (t.val + 1) = k1_pay2 (k1_pay9 (iblk1 V c 0 t)) (k1_pay10 (iblk1 V c 0 t) (iblk1 V c 4 t)) (accD1 V c t.val) := by
  rw [accD1, pt1_val]

/-- The invariant holds the two running sums: anything before the first tile, where they restart from zero, the sums so far after it. -/
theorem Phi1_open (c : Dev nD) (n : ℕ) :
    Phi1 V c n ⊢ iprop(∃ dS dD, ⌜(bif decide (n = 0) then k1_pay4 else dS) = accS1 V c n ∧ (bif decide (n = 0) then k1_pay5 else dD) = accD1 V c n⌝
      ∗ owns c.tc scS1 fullShare dS ∗ owns c.tc scD1 fullShare dD
      ∗ rest1 c
      ∗ ∃ r, prngReg c r) := by
  cases n with
  | zero =>
    show Pipeline.ΦA spec1 c ⊢ _
    rw [PhiA1_eq]
    iintro ⟨⟨⟨⟨%dS, HS⟩, ⟨%dD, HD⟩⟩, Hr⟩, Hg⟩
    iexists dS, dD; iframe; ipureintro; exact ⟨rfl, rfl⟩
  | succ n =>
    rw [Phi1]
    iintro ⟨HS, HD, Hr, Hg⟩
    iexists _, _; iframe; ipureintro; exact ⟨rfl, rfl⟩

/-- The mask row after point `t`: the thresholded score of the whole batch's sums at the last point, untouched before it. -/
theorem leaves1_7 (c : Dev nD) (t : Fin cfg1.N) (d) :
    owns c.tc (st1_7 t) fullShare (bif decide (t.val = 15) then k1_pay3 (k1_pay7 (iblk1 V c 5 t)) (accS1 V c (t.val + 1)) (accD1 V c (t.val + 1)) else (dat1 V c).before 7 t d)
      ⊢ (dat1 V c).leavesExact 7 t := by
  by_cases h : t.val = 15
  · rw [h, decide_eq_true rfl, cond_true]; unfold Dat.leavesExact; rw [live1_7 t h, after1_7]
  · rw [decide_eq_false h, cond_false, Dat.leavesExact_idle _ 7 t (idle1_7 t h).1 (idle1_7 t h).2]
    iintro H; iexists d; iexact H

/-- The body at any point: the invariant lends it the two sums, and one run covers the first, the middle and the last points. -/
theorem sound_body1 (c : Dev nD) (t : Fin cfg1.N) :
    iprop(Phi1 V c t.val ∗ (dat1 V c).owesAt () t.castSucc
      ∗ (∃ d, owns c.tc (st1_0 t) fullShare ((dat1 V c).before 0 t d))
      ∗ (∃ d, owns c.tc (st1_1 t) fullShare ((dat1 V c).before 1 t d))
      ∗ (∃ d, owns c.tc (st1_2 t) fullShare ((dat1 V c).before 2 t d))
      ∗ (∃ d, owns c.tc (st1_3 t) fullShare ((dat1 V c).before 3 t d))
      ∗ (∃ d, owns c.tc (st1_4 t) fullShare ((dat1 V c).before 4 t d))
      ∗ (∃ d, owns c.tc (st1_5 t) fullShare ((dat1 V c).before 5 t d))
      ∗ (∃ d, owns c.tc (st1_6 t) fullShare ((dat1 V c).before 6 t d))
      ∗ (∃ d, owns c.tc (st1_7 t) fullShare ((dat1 V c).before 7 t d)))
    ⊢ wp frame (wpE (defs₀ (F := F)) Variants.none c none) Set.univ (bodyAt1 t) (fun _ =>
      iprop(Phi1 V c (t.val + 1) ∗ (dat1 V c).owesAt () t.castSucc
      ∗ owns c.tc (st1_0 t) fullShare (iblk1 V c 0 t)
      ∗ owns c.tc (st1_1 t) fullShare (iblk1 V c 1 t)
      ∗ owns c.tc (st1_2 t) fullShare (iblk1 V c 2 t)
      ∗ owns c.tc (st1_3 t) fullShare (iblk1 V c 3 t)
      ∗ owns c.tc (st1_4 t) fullShare (iblk1 V c 4 t)
      ∗ owns c.tc (st1_5 t) fullShare (iblk1 V c 5 t)
      ∗ owns c.tc (st1_6 t) fullShare (k1_pay8 (iblk1 V c 0 t) (iblk1 V c 1 t) (iblk1 V c 2 t) (iblk1 V c 3 t))
      ∗ (dat1 V c).leavesExact 7 t)) := by
  simp only [before1_0, before1_1, before1_2, before1_3, before1_4, before1_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  icases (Phi1_open V c t.val) $$ HΦ with ⟨%dS, %dD, %ha, HS, HD, Hr, Hg⟩
  iapply run1 c Set.univ (grid1.coords t) (st1_0 t) _ (st1_1 t) _ (st1_2 t) _ (st1_3 t) _ (st1_4 t) _ (st1_5 t) _ (st1_6 t) _ (st1_7 t) _ scS1 _ scD1 _
    (decide (t.val = 0)) (decide (t.val = 15)) (hcond1 t).1 (hcond1 t).2
    (fun h h' => by have := of_decide_eq_true h; have := of_decide_eq_true h'; omega)
    (iblk1 V c 0 t) (iblk1 V c 1 t) (iblk1 V c 2 t) (iblk1 V c 3 t) (iblk1 V c 4 t) (iblk1 V c 5 t) ((dat1 V c).before 6 t d6) ((dat1 V c).before 7 t d7) dS (accS1 V c (t.val + 1)) dD (accD1 V c (t.val + 1))
    ((accS1_succ V c t).trans (congrArg _ ha.1.symm)) ((accD1_succ V c t).trans (congrArg _ ha.2.symm)) _
  iframe H0 H1 H2 H3 H4 H5 H6 H7 HS HD
  iintro ⟨H0, H1, H2, H3, H4, H5, H6, H7, HS, HD⟩
  rw [Phi1]
  iframe
  iapply (leaves1_7 V c t d7) $$ H7

theorem body_obligation1 (c : Dev nD) : BodyObligation (dat1 (F := F) V c) (defs₀ (F := F)) Variants.none () Set.univ := fun t => by
  rw [bigSep_W1, bigSep_W1]
  exact sound_body1 V c t

/-- After the last point the sums' contents are forgotten again. -/
theorem Phi1_last (c : Dev nD) : (dat1 V c).Φ (Fin.last cfg1.N) ⊢ (Pipeline.ΦA spec1 c : sProp 𝕄) := by
  rw [show (dat1 V c).Φ (Fin.last cfg1.N) = Phi1 V c (15 + 1) from rfl, Phi1, PhiA1_eq]
  iintro ⟨HS, HD, Hr, Hg⟩
  iframe
  isplitl [HS] <;> (iexists _; iassumption)

end Region1

end Cert.KernelIdeal.Hand

end
-- ==== Proof.KI.Reg2.lean ====
import proofs.«131279_j13907104104967_1_alg».proof.Proof.Gen.KernelIdeal.Launch
import proofs.«131279_j13907104104967_1_alg».proof.Proof.Gen.KernelIdeal.Skeleton
import proofs.«131279_j13907104104967_1_alg».proof.Proof.Gen.KernelIdeal.Points
import proofs.«131279_j13907104104967_1_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Whole

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def pt2 (n : ℕ) : Fin cfg2.N := ⟨min n 15, by rw [show cfg2.N = 16 from N_2]; omega⟩

theorem pt2_val (t : Fin cfg2.N) : pt2 t.val = t := by
  have h : t.val < 16 := lt_of_lt_of_eq t.isLt (show cfg2.N = 16 from N_2)
  apply Fin.ext; show min t.val 15 = t.val; omega

def accS2 (c : Dev nD) : ℕ → Vec F S1x1 .f32
  | 0 => k2_pay4
  | n + 1 => k2_pay1 (k2_pay10 (iblk2 V c 0 (pt2 n)) (iblk2 V c 4 (pt2 n))) (accS2 c n)

def accD2 (c : Dev nD) : ℕ → Vec F S1x64 .f32
  | 0 => k2_pay5
  | n + 1 => k2_pay2 (k2_pay9 (iblk2 V c 0 (pt2 n))) (k2_pay10 (iblk2 V c 0 (pt2 n)) (iblk2 V c 4 (pt2 n))) (accD2 c n)

abbrev scS2 : Memref sig .tc .vmem S1x1 .f32 := Memref.whole cc2_scratch0
abbrev scD2 : Memref sig .tc .vmem S1x64 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

def Phi2 (c : Dev nD) : ℕ → sProp 𝕄
  | 0 => Pipeline.ΦA spec2 c
  | n + 1 => iprop(owns c.tc scS2 fullShare (accS2 V c (n + 1))
      ∗ owns c.tc scD2 fullShare (accD2 V c (n + 1))
      ∗ rest2 c
      ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay8 (iblk2 V c 0 t) (iblk2 V c 1 t) (iblk2 V c 2 t) (iblk2 V c 3 t)
    | ⟨7, _⟩ => k2_pay3 (k2_pay7 (iblk2 V c 5 t)) (accS2 V c 16) (accD2 V c 16)
  Φ t := Phi2 V c t.val
  q _ := fullShare
  owed _ := 0

theorem A_eq2 (c : Dev nD) (w : Fin cfg2.W) : (dat2 V c).A w = V c (Pipeline.arrRef spec2 w) := by
  dsimp only [dat2]
theorem Phi2_zero (c : Dev nD) : (dat2 V c).Φ 0 = Pipeline.ΦA spec2 c := rfl
theorem owed2 (c : Dev nD) (t) : (dat2 V c).owed t = 0 := rfl
theorem q2 (c : Dev nD) (w) : (dat2 V c).q w = fullShare := rfl
theorem after2_6 (c : Dev nD) (t : Fin cfg2.N) :
    (dat2 V c).after 6 t = k2_pay8 (iblk2 V c 0 t) (iblk2 V c 1 t) (iblk2 V c 2 t) (iblk2 V c 3 t) := by dsimp only [dat2]
theorem after2_7 (c : Dev nD) (t : Fin cfg2.N) :
    (dat2 V c).after 7 t = k2_pay3 (k2_pay7 (iblk2 V c 5 t)) (accS2 V c 16) (accD2 V c 16) := by dsimp only [dat2]

abbrev cond2_1 (i : grid2.Coords) : Prop :=
  (Scalar.cmpi .ne (Scalar.extui (Scalar.cmpi .eq (BitVec.ofNat 32 (i 0).val) 0#32)) 0#32) = 1#1
abbrev cond2_2 (i : grid2.Coords) : Prop := k2_cond2 i = 1#1

theorem hcond2 : ∀ t : Fin cfg2.N, (cond2_1 (grid2.coords t) ↔ decide (t.val = 0) = true) ∧ (cond2_2 (grid2.coords t) ↔ decide (t.val = 15) = true) :=
  (by decide +kernel : ∀ t : Fin grid2.N, (cond2_1 (grid2.coords t) ↔ decide (t.val = 0) = true) ∧ (cond2_2 (grid2.coords t) ↔ decide (t.val = 15) = true))

theorem idle2_7 : ∀ t : Fin cfg2.N, t.val ≠ 15 → cfg2.idle 7 (grid2.coords t) = true ∧ (cfg2.win 7).flush t = false := by decide +kernel
theorem live2_7 : ∀ t : Fin cfg2.N, t.val = 15 → cfg2.idle 7 (grid2.coords t) = false := by decide +kernel

/-- One point of the body: `b1` says it is the first (the sums restart from zero), `b2` that it is the last (the mask row is computed from the sums). -/
theorem run2 (c : Dev nD) (E : Set ℕ) (i : grid2.Coords) (arg1 harg1 arg2 harg2 arg3 harg3 arg4 harg4 arg5 harg5 arg6 harg6 arg7 harg7 arg8 harg8 arg9 harg9 arg10 harg10)
    (b1 b2 : Bool) (h1 : cond2_1 i ↔ b1 = true) (h2 : cond2_2 i ↔ b2 = true) (hx : b1 = true → b2 = true → False)
    (x0 x1 x2 x3 x4 x5 d6 x7 aS aS' aD aD')
    (hS : aS' = k2_pay1 (k2_pay10 x0 x4) (bif b1 then k2_pay4 else aS)) (hD : aD' = k2_pay2 (k2_pay9 x0) (k2_pay10 x0 x4) (bif b1 then k2_pay5 else aD)) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ owns c.tc arg7 fullShare d6 ∗ owns c.tc arg8 fullShare x7
        ∗ owns c.tc arg9 fullShare aS ∗ owns c.tc arg10 fullShare aD
        ∗ (iprop(owns c.tc arg1 fullShare x0 ∗ owns c.tc arg2 fullShare x1 ∗ owns c.tc arg3 fullShare x2
            ∗ owns c.tc arg4 fullShare x3 ∗ owns c.tc arg5 fullShare x4 ∗ owns c.tc arg6 fullShare x5
            ∗ owns c.tc arg7 fullShare (k2_pay8 x0 x1 x2 x3) ∗ owns c.tc arg8 fullShare (bif b2 then k2_pay3 (k2_pay7 x5) aS' aD' else x7)
            ∗ owns c.tc arg9 fullShare aS' ∗ owns c.tc arg10 fullShare aD') -∗ K ⟨⟩))
      ⊢ wp frame (wpE (defs₀ (F := F)) Variants.none c none) E (cc2__hebbian_layer_kernel i arg1 harg1 arg2 harg2 arg3 harg3 arg4 harg4 arg5 harg5 arg6 harg6 arg7 harg7 arg8 harg8 arg9 harg9 arg10 harg10) K := by
  simp only [cc2__hebbian_layer_kernel_eq_skeleton]; unfold cc2__hebbian_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, ⟨%f8, %hf8, H8⟩, ⟨%f9, %hf9, H9⟩, ⟨%f10, %hf10, H10⟩, Hk⟩
  subst hf1 hf2 hf3 hf4 hf5 hf6 hf8 hf9 hf10 hS hD
  cases b1 <;> cases b2 <;> first | exact (hx rfl rfl).elim | skip
  all_goals
    simp only [eq_self, iff_true, Bool.false_eq_true, iff_false] at h1 h2
    sl_exec (disch := first | exact h1 | exact h2)
    sl_step
    iapply Hk
    isplitl [H1]; swap; isplitl [H2]; swap; isplitl [H3]; swap; isplitl [H4]; swap; isplitl [H5]; swap
    isplitl [H6]; swap; isplitl [H7]; swap; isplitl [H8]; swap; isplitl [H9]; swap
    all_goals (iexists _; isplitr; swap; iassumption; ipureintro)
    all_goals first
      | exact (read_writes_cons_unit_zero _ _ hz2 _ _ _).trans (by sl_unfold_run_names; simp only [View.readCov_unit_zero (S := S1x1) _ hz2, View.readCov_unit_zero (S := S1x64) _ hz2, View.readAt_eq_ld, View.ld_unit_zero (S := S512x128) hz2, View.ld_unit_zero (S := S64x128) hz2, View.ld_unit_zero (S := S1x64) hz2, View.ld_unit_zero (S := S1x1) hz2, cond_true, cond_false])
      | rfl

/-- What the body reads of an input at point `t` is that input's block `t` of the array. -/
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

theorem PhiA2_eq (c : Dev nD) :
    (Pipeline.ΦA spec2 c : sProp 𝕄)
      = iprop(iprop(iprop((∃ d, owns c.tc scS2 fullShare d) ∗ (∃ d, owns c.tc scD2 fullShare d))
          ∗ rest2 c)
          ∗ ∃ r, prngReg c r) := by
  unfold Pipeline.ΦA; rw [scopedRest2_split]; simp only [scS2, scD2, owns_whole]; try rfl

theorem accS2_succ (c : Dev nD) (t : Fin cfg2.N) :
    accS2 V c (t.val + 1) = k2_pay1 (k2_pay10 (iblk2 V c 0 t) (iblk2 V c 4 t)) (accS2 V c t.val) := by
  rw [accS2, pt2_val]
theorem accD2_succ (c : Dev nD) (t : Fin cfg2.N) :
    accD2 V c (t.val + 1) = k2_pay2 (k2_pay9 (iblk2 V c 0 t)) (k2_pay10 (iblk2 V c 0 t) (iblk2 V c 4 t)) (accD2 V c t.val) := by
  rw [accD2, pt2_val]

/-- The invariant holds the two running sums: anything before the first tile, where they restart from zero, the sums so far after it. -/
theorem Phi2_open (c : Dev nD) (n : ℕ) :
    Phi2 V c n ⊢ iprop(∃ dS dD, ⌜(bif decide (n = 0) then k2_pay4 else dS) = accS2 V c n ∧ (bif decide (n = 0) then k2_pay5 else dD) = accD2 V c n⌝
      ∗ owns c.tc scS2 fullShare dS ∗ owns c.tc scD2 fullShare dD
      ∗ rest2 c
      ∗ ∃ r, prngReg c r) := by
  cases n with
  | zero =>
    show Pipeline.ΦA spec2 c ⊢ _
    rw [PhiA2_eq]
    iintro ⟨⟨⟨⟨%dS, HS⟩, ⟨%dD, HD⟩⟩, Hr⟩, Hg⟩
    iexists dS, dD; iframe; ipureintro; exact ⟨rfl, rfl⟩
  | succ n =>
    rw [Phi2]
    iintro ⟨HS, HD, Hr, Hg⟩
    iexists _, _; iframe; ipureintro; exact ⟨rfl, rfl⟩

/-- The mask row after point `t`: the thresholded score of the whole batch's sums at the last point, untouched before it. -/
theorem leaves2_7 (c : Dev nD) (t : Fin cfg2.N) (d) :
    owns c.tc (st2_7 t) fullShare (bif decide (t.val = 15) then k2_pay3 (k2_pay7 (iblk2 V c 5 t)) (accS2 V c (t.val + 1)) (accD2 V c (t.val + 1)) else (dat2 V c).before 7 t d)
      ⊢ (dat2 V c).leavesExact 7 t := by
  by_cases h : t.val = 15
  · rw [h, decide_eq_true rfl, cond_true]; unfold Dat.leavesExact; rw [live2_7 t h, after2_7]
  · rw [decide_eq_false h, cond_false, Dat.leavesExact_idle _ 7 t (idle2_7 t h).1 (idle2_7 t h).2]
    iintro H; iexists d; iexact H

/-- The body at any point: the invariant lends it the two sums, and one run covers the first, the middle and the last points. -/
theorem sound_body2 (c : Dev nD) (t : Fin cfg2.N) :
    iprop(Phi2 V c t.val ∗ (dat2 V c).owesAt () t.castSucc
      ∗ (∃ d, owns c.tc (st2_0 t) fullShare ((dat2 V c).before 0 t d))
      ∗ (∃ d, owns c.tc (st2_1 t) fullShare ((dat2 V c).before 1 t d))
      ∗ (∃ d, owns c.tc (st2_2 t) fullShare ((dat2 V c).before 2 t d))
      ∗ (∃ d, owns c.tc (st2_3 t) fullShare ((dat2 V c).before 3 t d))
      ∗ (∃ d, owns c.tc (st2_4 t) fullShare ((dat2 V c).before 4 t d))
      ∗ (∃ d, owns c.tc (st2_5 t) fullShare ((dat2 V c).before 5 t d))
      ∗ (∃ d, owns c.tc (st2_6 t) fullShare ((dat2 V c).before 6 t d))
      ∗ (∃ d, owns c.tc (st2_7 t) fullShare ((dat2 V c).before 7 t d)))
    ⊢ wp frame (wpE (defs₀ (F := F)) Variants.none c none) Set.univ (bodyAt2 t) (fun _ =>
      iprop(Phi2 V c (t.val + 1) ∗ (dat2 V c).owesAt () t.castSucc
      ∗ owns c.tc (st2_0 t) fullShare (iblk2 V c 0 t)
      ∗ owns c.tc (st2_1 t) fullShare (iblk2 V c 1 t)
      ∗ owns c.tc (st2_2 t) fullShare (iblk2 V c 2 t)
      ∗ owns c.tc (st2_3 t) fullShare (iblk2 V c 3 t)
      ∗ owns c.tc (st2_4 t) fullShare (iblk2 V c 4 t)
      ∗ owns c.tc (st2_5 t) fullShare (iblk2 V c 5 t)
      ∗ owns c.tc (st2_6 t) fullShare (k2_pay8 (iblk2 V c 0 t) (iblk2 V c 1 t) (iblk2 V c 2 t) (iblk2 V c 3 t))
      ∗ (dat2 V c).leavesExact 7 t)) := by
  simp only [before2_0, before2_1, before2_2, before2_3, before2_4, before2_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  icases (Phi2_open V c t.val) $$ HΦ with ⟨%dS, %dD, %ha, HS, HD, Hr, Hg⟩
  iapply run2 c Set.univ (grid2.coords t) (st2_0 t) _ (st2_1 t) _ (st2_2 t) _ (st2_3 t) _ (st2_4 t) _ (st2_5 t) _ (st2_6 t) _ (st2_7 t) _ scS2 _ scD2 _
    (decide (t.val = 0)) (decide (t.val = 15)) (hcond2 t).1 (hcond2 t).2
    (fun h h' => by have := of_decide_eq_true h; have := of_decide_eq_true h'; omega)
    (iblk2 V c 0 t) (iblk2 V c 1 t) (iblk2 V c 2 t) (iblk2 V c 3 t) (iblk2 V c 4 t) (iblk2 V c 5 t) ((dat2 V c).before 6 t d6) ((dat2 V c).before 7 t d7) dS (accS2 V c (t.val + 1)) dD (accD2 V c (t.val + 1))
    ((accS2_succ V c t).trans (congrArg _ ha.1.symm)) ((accD2_succ V c t).trans (congrArg _ ha.2.symm)) _
  iframe H0 H1 H2 H3 H4 H5 H6 H7 HS HD
  iintro ⟨H0, H1, H2, H3, H4, H5, H6, H7, HS, HD⟩
  rw [Phi2]
  iframe
  iapply (leaves2_7 V c t d7) $$ H7

theorem body_obligation2 (c : Dev nD) : BodyObligation (dat2 (F := F) V c) (defs₀ (F := F)) Variants.none () Set.univ := fun t => by
  rw [bigSep_W2, bigSep_W2]
  exact sound_body2 V c t

/-- After the last point the sums' contents are forgotten again. -/
theorem Phi2_last (c : Dev nD) : (dat2 V c).Φ (Fin.last cfg2.N) ⊢ (Pipeline.ΦA spec2 c : sProp 𝕄) := by
  rw [show (dat2 V c).Φ (Fin.last cfg2.N) = Phi2 V c (15 + 1) from rfl, Phi2, PhiA2_eq]
  iintro ⟨HS, HD, Hr, Hg⟩
  iframe
  isplitl [HS] <;> (iexists _; iassumption)

end Region2

end Cert.KernelIdeal.Hand

end
-- ==== Proof.KI.Reg3.lean ====
import proofs.«131279_j13907104104967_1_alg».proof.Proof.Gen.KernelIdeal.Launch
import proofs.«131279_j13907104104967_1_alg».proof.Proof.Gen.KernelIdeal.Skeleton
import proofs.«131279_j13907104104967_1_alg».proof.Proof.Gen.KernelIdeal.Points
import proofs.«131279_j13907104104967_1_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The last layer's call: each tile of 1024 rows of the output is the linear layer of that tile of the input. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay1 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_3 (c : Dev nD) (t : Fin cfg3.N) :
    (dat3 V c).after 3 t = k3_pay1 (iblk3 V c 0 t) (iblk3 V c 1 t) (iblk3 V c 2 t) := by dsimp only [dat3]
theorem Phi3 (c : Dev nD) (i : Fin (cfg3.N + 1)) : (dat3 V c).Φ i = Pipeline.ΦA spec3 c := rfl
theorem owed3 (c : Dev nD) (t) : (dat3 V c).owed t = 0 := rfl
theorem q3 (c : Dev nD) (w : Fin cfg3.W) : (dat3 V c).q w = fullShare := rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d

/-- The body on whole buffers: the output buffer ends at the linear layer of the three inputs, which are left as they were. -/
theorem run3 (c : Dev nD) (E : Set ℕ) (i : grid3.Coords) (arg1 harg1 arg2 harg2 arg3 harg3 arg4 harg4) (x0 x1 x2) (K : PUnit → sProp 𝕄) :
    iprop(owns c.tc arg1 fullShare x0 ∗ owns c.tc arg2 fullShare x1 ∗ owns c.tc arg3 fullShare x2 ∗ (∃ d, owns c.tc arg4 fullShare d)
        ∗ (iprop(owns c.tc arg1 fullShare x0 ∗ owns c.tc arg2 fullShare x1 ∗ owns c.tc arg3 fullShare x2
            ∗ owns c.tc arg4 fullShare (k3_pay1 x0 x1 x2)) -∗ K ⟨⟩))
      ⊢ wp frame (wpE (defs₀ (F := F)) Variants.none c none) E (cc3__final_layer_kernel i arg1 harg1 arg2 harg2 arg3 harg3 arg4 harg4) K := by
  simp only [cc3__final_layer_kernel_eq_skeleton]; unfold cc3__final_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; swap; isplitl [H1]; swap; isplitl [H2]; swap
  all_goals (iexists _; isplitr; swap; iassumption; ipureintro)
  all_goals first
    | rfl
    | (rw [read_writes_cons_unit_zero _ _ hz2]; simp only [readAt_unit_zero (S := S1024x64) _ _ hz2, readAt_unit_zero (S := S1000x64) _ _ hz2, readAt_unit_zero (S := S1x1000) _ _ hz2])

theorem body_obligation3 (c : Dev nD) : BodyObligation (dat3 (F := F) V c) (defs₀ (F := F)) Variants.none () Set.univ := fun t => by
  rw [bigSep_W3, bigSep_W3]
  show iprop(Pipeline.ΦA spec3 c ∗ (dat3 V c).owesAt () t.castSucc
      ∗ (∃ d, owns c.tc (st3_0 t) fullShare ((dat3 V c).before 0 t d))
      ∗ (∃ d, owns c.tc (st3_1 t) fullShare ((dat3 V c).before 1 t d))
      ∗ (∃ d, owns c.tc (st3_2 t) fullShare ((dat3 V c).before 2 t d))
      ∗ (∃ d, owns c.tc (st3_3 t) fullShare ((dat3 V c).before 3 t d)))
    ⊢ wp frame (wpE (defs₀ (F := F)) Variants.none c none) Set.univ (bodyAt3 t) (fun _ =>
      iprop(Pipeline.ΦA spec3 c ∗ (dat3 V c).owesAt () t.castSucc
      ∗ owns c.tc (st3_0 t) fullShare (iblk3 V c 0 t)
      ∗ owns c.tc (st3_1 t) fullShare (iblk3 V c 1 t)
      ∗ owns c.tc (st3_2 t) fullShare (iblk3 V c 2 t)
      ∗ owns c.tc (st3_3 t) fullShare (k3_pay1 (iblk3 V c 0 t) (iblk3 V c 1 t) (iblk3 V c 2 t))))
  simp only [before3_0, before3_1, before3_2]
  iintro ⟨HΦ, Ho, ⟨%d0, H0⟩, ⟨%d1, H1⟩, ⟨%d2, H2⟩, ⟨%d3, H3⟩⟩
  iapply run3 c Set.univ (grid3.coords t) (st3_0 t) _ (st3_1 t) _ (st3_2 t) _ (st3_3 t) _ (iblk3 V c 0 t) (iblk3 V c 1 t) (iblk3 V c 2 t) _
  iframe H0 H1 H2
  isplitl [H3]; · iexists _; iexact H3
  iintro ⟨H0, H1, H2, H3⟩
  iframe

end Cert.KernelIdeal.Hand

end
-- ==== Proof.KI.Run.lean ====
import proofs.«131279_j13907104104967_1_alg».proof.Proof.KI.Reg0
import proofs.«131279_j13907104104967_1_alg».proof.Proof.KI.Reg1
import proofs.«131279_j13907104104967_1_alg».proof.Proof.KI.Reg2
import proofs.«131279_j13907104104967_1_alg».proof.Proof.KI.Reg3
import proofs.«131279_j13907104104967_1_alg».proof.Proof.Gen.KernelIdeal.Regions

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb

/-- A buffer that is no output window's array has the same contents after the region as before it. -/
theorem withArrays_keep {cfg : Cfg sig Λ₀} {c : Dev nD} (d : Dat τ (Elt F) Unit ℕ (UR sig nD τ) ℕ cfg c)
    (hinj : Function.Injective (Pipeline.arrRef cfg.spec)) (W : Valuation τ sig (Elt F))
    (hA : ∀ w, d.A w = W (Proc.devRef .tc (Pipeline.arrRef cfg.spec w))) (b : Ref sig .tc)
    (hb : ∀ w, Pipeline.arrRef cfg.spec w = b → (cfg.win w).isOut = false) :
    Pipeline.withArrays cfg.spec c W (fun w => d.arrAt w cfg.N) (Proc.devRef .tc b) = W (Proc.devRef .tc b) := by
  by_cases h : ∃ w, Pipeline.arrRef cfg.spec w = b
  · obtain ⟨w, rfl⟩ := h
    rw [Pipeline.withArrays_arr _ hinj, d.arrAt_in w (hb w rfl), hA]
  · exact Pipeline.withArrays_of_ne _ c _ _ b fun w e => h ⟨w, e⟩

abbrev args : List (Ref sig .tc) := [main_arg0, main_arg1, main_arg2, main_arg3, main_arg4, main_arg5, main_arg6, main_arg7, main_arg8, main_arg9, main_arg10, main_arg11, main_arg12, main_arg13, main_arg14]

/-- An argument holds its launch contents at the end: no host operation writes it and no region has it as an output array. -/
theorem W8_main_arg (c : Dev nD) (b : Ref sig .tc) (hb : b ∈ args) :
    W8 m ρ c (Proc.devRef .tc b) = m ((c : Thread nD τ).loc b) := by
  have h : (b ∉ hostOps0_W ∧ b ∉ hostOps1_W ∧ b ∉ hostOps2_W ∧ b ∉ hostOps3_W)
      ∧ (∀ w, Pipeline.arrRef cfg0.spec w = b → (cfg0.win w).isOut = false)
      ∧ (∀ w, Pipeline.arrRef cfg1.spec w = b → (cfg1.win w).isOut = false)
      ∧ (∀ w, Pipeline.arrRef cfg2.spec w = b → (cfg2.win w).isOut = false)
      ∧ ∀ w, Pipeline.arrRef cfg3.spec w = b → (cfg3.win w).isOut = false := by
    revert b; decide
  obtain ⟨⟨g0, g1, g2, g3⟩, k0, k1, k2, k3⟩ := h
  exact (withArrays_keep (dat3 (V7 m ρ) c) launch3.win.arr_inj _ (A_eq3 (V7 m ρ) c) b k3).trans <|
    (StableHlo.after_of_writes_sub hostOps3 _ hostOps3_writes g3).trans <|
    (withArrays_keep (dat2 (V5 m ρ) c) launch2.win.arr_inj _ (A_eq2 (V5 m ρ) c) b k2).trans <|
    (StableHlo.after_of_writes_sub hostOps2 _ hostOps2_writes g2).trans <|
    (withArrays_keep (dat1 (V3 m ρ) c) launch1.win.arr_inj _ (A_eq1 (V3 m ρ) c) b k1).trans <|
    (StableHlo.after_of_writes_sub hostOps1 _ hostOps1_writes g1).trans <|
    (withArrays_keep (dat0 (V1 m ρ) c) launch0.win.arr_inj _ (A_eq0 (V1 m ρ) c) b k0).trans
    (StableHlo.after_of_writes_sub hostOps0 _ hostOps0_writes g0)

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region `p` as one step of the program: the buffers at `Wi` before it; after it the same, with the region's arrays at their final contents. -/
def reg (p : Fin 4) (lf : Pipeline.LaunchFacts (nD := nD) (τ := τ) cfgs p) (Wi : Dev nD → Valuation τ sig (Elt F))
    (hb : ∀ c, BodyObligation (pdats m ρ p c) (defs₀ (F := F)) 𝒱₀ () Set.univ)
    (ho : ∀ c t, (pdats m ρ p c).owed t = 0) (hq : ∀ c w, (pdats m ρ p c).q w = fullShare)
    (hr : ∀ c, (pdats m ρ p c).recorded 0 = Set.univ)
    (hA : ∀ c w, (pdats m ρ p c).A w = Wi c (Proc.devRef .tc (Pipeline.arrRef (cfgs p).spec w)))
    (h0 : ∀ c, (pdats m ρ p c).Φ 0 = Pipeline.ΦA (cfgs p).spec c)
    (hN : ∀ c, (pdats m ρ p c).Φ (Fin.last _) ⊢ (Pipeline.ΦA (cfgs p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Wi c) ∗ R c)
  post c := iprop(StableHlo.held (c : Thread nD τ) (Pipeline.ucRefs τ sig)
    (Pipeline.withArrays (cfgs p).spec c (Wi c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin Pipeline.Dat.bound; rw [ho c, hr c]
    icases HO with ⟨%W, HO⟩; iexists W; isplitr; · ipureintro; exact fun _ _ => Or.inl trivial
    iexact HO
  hin c := by
    rw [h0 c]; unfold Pipeline.ΦA
    iintro ⟨Hp, -, Hr⟩
    iframe
  hout c := by
    rw [Pipeline.ownSems0_none]
    refine (hN c).trans ?_
    unfold Pipeline.ΦA
    iintro ⟨Hr, Hp⟩
    iframe
    iempintro
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => Wi c b)
      (fun b => Pipeline.withArrays (cfgs p).spec c (Wi c) (fun w => (pdats m ρ p c).arrAt w (cfgs p).N) b)
      ((pdats m ρ p c).arrAt · (cfgs p).N)
      (fun w => (Pipeline.withArrays_arr (cfgs p).spec lf.win.arr_inj c (Wi c) ((pdats m ρ p c).arrAt · (cfgs p).N) w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho c]
    icases HO with ⟨%W, -, HO⟩; iexists W; iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .region (reg m ρ 0 launch0 (W1 m ρ) (body_obligation0 (V1 m ρ)) (owed0 (V1 m ρ)) (q0 (V1 m ρ)) (fun _ => rfl)
      (A_eq0 (V1 m ρ)) (Phi0_zero (V1 m ρ)) (Phi0_last (V1 m ρ))),
    .host (hseg hostOps1 hostOps1_sub hostOps1_fresh (W2 m ρ)),
    .region (reg m ρ 1 launch1 (W3 m ρ) (body_obligation1 (V3 m ρ)) (owed1 (V3 m ρ)) (q1 (V3 m ρ)) (fun _ => rfl)
      (A_eq1 (V3 m ρ)) (Phi1_zero (V3 m ρ)) (Phi1_last (V3 m ρ))),
    .host (hseg hostOps2 hostOps2_sub hostOps2_fresh (W4 m ρ)),
    .region (reg m ρ 2 launch2 (W5 m ρ) (body_obligation2 (V5 m ρ)) (owed2 (V5 m ρ)) (q2 (V5 m ρ)) (fun _ => rfl)
      (A_eq2 (V5 m ρ)) (Phi2_zero (V5 m ρ)) (Phi2_last (V5 m ρ))),
    .host (hseg hostOps3 hostOps3_sub hostOps3_fresh (W6 m ρ)),
    .region (reg m ρ 3 launch3 (W7 m ρ) (body_obligation3 (V7 m ρ)) (owed3 (V7 m ρ)) (q3 (V7 m ρ)) (fun _ => rfl)
      (A_eq3 (V7 m ρ)) (fun c => Phi3 (V7 m ρ) c 0) fun c => Entails.of_eq (Phi3 (V7 m ρ) c (Fin.last _))) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W8 m ρ c) ∗ ∃ r, prngReg c r))
    (hch := ⟨fun _ => .rfl, fun _ => .rfl, fun _ => .rfl, fun _ => .rfl, fun _ => .rfl, fun _ => .rfl, fun _ => .rfl,
      fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- Every argument array holds its launch contents. -/
abbrev ArgsKept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)

/-- At the last contents each argument array reads as launched. -/
theorem kept_args {r : PUnit × MemSt nD τ sig (Elt F)}
    (h : ∀ c : Dev nD, ∀ b ∈ Pipeline.ucRefs τ sig, r.2.mem (((c : Thread nD τ)).1, b) = W8 m ρ c b) (c : Dev nD) :
    ArgsKept m r.2 c := by
  have k (b : Ref sig .tc) (hb : b ∈ args) : r.2.mem ((c.tc : Thread nD τ).loc b) = m ((c.tc : Thread nD τ).loc b) :=
    (h c _ (mem_uc b (by revert b; decide))).trans (W8_main_arg m ρ c b hb)
  and_intros <;> exact k _ (by decide)

theorem frame : θ_run defs (onTc (τ := τ) (main (F := F))) ⟨m, fun _ => 0, ρ⟩ fun r => ∀ c : Dev nD, ArgsKept m r.2 c :=
  (θ_run defs _ _).mono (fun r h c => kept_args m ρ h c) (run_all m ρ)

end Cert.KernelIdeal.Hand

end
-- ==== Proof.Spec.lean ====
import Idealize.ShloMosaic.PureOps.Ideal
import Idealize.ShloMosaic.Lib.ValueIdx
import Mathlib.Algebra.BigOperators.Fin
import Mathlib.Data.Fintype.BigOperators
import Mathlib.Order.CompleteLattice.Finset

noncomputable section

namespace Cert.Spec

open Idealize.ShloMosaic Idealize.ShloMosaic.ValueIdx
open scoped BigOperators

variable {B X Y : ℕ}

/-- The Euclidean norm of row `i`. -/
def rnorm (a : Fin B → Fin X → EReal) (i : Fin B) : EReal := Ideal.sqrt (∑ k, a i k * a i k)

/-- The rows scaled to unit length. -/
def unitRows (a : Fin B → Fin X → EReal) : Fin B → Fin X → EReal := fun i k => Ideal.div (a i k) (rnorm a i)

def rowsDot (a : Fin B → Fin X → EReal) (H : Fin Y → Fin X → EReal) : Fin B → Fin Y → EReal := fun i j => ∑ k, a i k * H j k

/-- The unit rows times `Hᵀ`. -/
def proj (a : Fin B → Fin X → EReal) (H : Fin Y → Fin X → EReal) : Fin B → Fin Y → EReal := rowsDot (unitRows a) H

/-- The projection with its rows scaled to unit length again. -/
def uproj (a : Fin B → Fin X → EReal) (H : Fin Y → Fin X → EReal) : Fin B → Fin Y → EReal := unitRows (proj a H)

/-- The mean of the squared unit projections. -/
def theta (a : Fin B → Fin X → EReal) (H : Fin Y → Fin X → EReal) (n : EReal) : EReal :=
  Ideal.div (∑ i, ∑ j, uproj a H i j * uproj a H i j) n

/-- The reference's score of row `j`: the row sum of `H + (ynᵀ·xn − θ·H)`. -/
def scoreRef (a : Fin B → Fin X → EReal) (H : Fin Y → Fin X → EReal) (n : EReal) : Fin Y → EReal := fun j =>
  ∑ k, (H j k + 1 * ((∑ i, uproj a H i j * unitRows a i k) - theta a H n * H j k))

/-- The kernel's score of row `j`: `(1 − θ)·Σₖ H j k + Σᵢ yn i j · Σₖ xn i k`. -/
def scoreKer (a : Fin B → Fin X → EReal) (H : Fin Y → Fin X → EReal) (n : EReal) : Fin Y → EReal := fun j =>
  (1 - 1 * theta a H n) * (∑ k, H j k) + 1 * (∑ i, uproj a H i j * (∑ k, unitRows a i k))

/-- Min–max normalise and threshold at `h`. -/
def thresh (s : Fin Y → EReal) (ε h : EReal) : Fin Y → EReal := fun j =>
  if Ideal.div (s j - Finset.univ.inf s) (Finset.univ.sup s - Finset.univ.inf s + ε) < h then 0 else 1

def relu (a : Fin B → Fin X → EReal) (W : Fin Y → Fin X → EReal) (b : Fin Y → EReal) : Fin B → Fin Y → EReal :=
  fun i j => max ((∑ k, a i k * W j k) + b j) 0

/-- `relu (a·Wᵀ + b)` times the mask. -/
def layer (a : Fin B → Fin X → EReal) (W : Fin Y → Fin X → EReal) (b : Fin Y → EReal) (mask : Fin Y → EReal) :
    Fin B → Fin Y → EReal := fun i j => relu a W b i j * mask j

def A2 {n0 n1 : ℕ} (v : (⟨2, ![n0, n1]⟩ : Shape).Idx → EReal) : Fin n0 → Fin n1 → EReal := fun i k => v (ix2 i k)

def A1 {n : ℕ} (v : (⟨1, ![n]⟩ : Shape).Idx → EReal) : Fin n → EReal := fun j => v (ix1 j)

/-- The fifteen arguments as functions of their coordinates. -/
structure Inputs where
  x : Fin 8192 → Fin 1024 → EReal
  mask0 : Fin 256 → EReal
  mask1 : Fin 128 → EReal
  mask2 : Fin 64 → EReal
  W1 : Fin 256 → Fin 1024 → EReal
  b1 : Fin 256 → EReal
  W2 : Fin 128 → Fin 256 → EReal
  b2 : Fin 128 → EReal
  W3 : Fin 64 → Fin 128 → EReal
  b3 : Fin 64 → EReal
  W4 : Fin 1000 → Fin 64 → EReal
  b4 : Fin 1000 → EReal
  H1 : Fin 256 → Fin 1024 → EReal
  H2 : Fin 128 → Fin 256 → EReal
  H3 : Fin 64 → Fin 128 → EReal

def n1 : EReal := Ideal.ofBits .f32 0x4A000000#32
def n2 : EReal := Ideal.ofBits .f32 0x49800000#32
def n3 : EReal := Ideal.ofBits .f32 0x49000000#32
def eps : EReal := Ideal.ofBits .f32 0x322BCC77#32
def half : EReal := Ideal.ofBits .f32 0x3F000000#32

namespace Inputs
variable (I : Inputs)

def x1 : Fin 8192 → Fin 256 → EReal := layer I.x I.W1 I.b1 I.mask0
def x2 : Fin 8192 → Fin 128 → EReal := layer I.x1 I.W2 I.b2 I.mask1
def x3 : Fin 8192 → Fin 64 → EReal := layer I.x2 I.W3 I.b3 I.mask2
def out : Fin 8192 → Fin 1000 → EReal := relu I.x3 I.W4 I.b4

def hm0R : Fin 256 → EReal := thresh (scoreRef I.x I.H1 n1) eps half
def hm1R : Fin 128 → EReal := thresh (scoreRef I.x1 I.H2 n2) eps half
def hm2R : Fin 64 → EReal := thresh (scoreRef I.x2 I.H3 n3) eps half

def hm0K : Fin 256 → EReal := thresh (scoreKer I.x I.H1 n1) eps half
def hm1K : Fin 128 → EReal := thresh (scoreKer I.x1 I.H2 n2) eps half
def hm2K : Fin 64 → EReal := thresh (scoreKer I.x2 I.H3 n3) eps half
end Inputs

def Fin2 {m n : ℕ} (a : Fin m → Fin n → EReal) : Prop := ∀ i k, ∃ r : ℝ, a i k = (r : EReal)
def Fin1 {n : ℕ} (a : Fin n → EReal) : Prop := ∀ j, ∃ r : ℝ, a j = (r : EReal)

/-- Every input entry is a real number and the six row norms the reference divides by are positive. -/
structure Dom (I : Inputs) : Prop where
  x : Fin2 I.x
  mask0 : Fin1 I.mask0
  mask1 : Fin1 I.mask1
  mask2 : Fin1 I.mask2
  W1 : Fin2 I.W1
  b1 : Fin1 I.b1
  W2 : Fin2 I.W2
  b2 : Fin1 I.b2
  W3 : Fin2 I.W3
  b3 : Fin1 I.b3
  W4 : Fin2 I.W4
  b4 : Fin1 I.b4
  H1 : Fin2 I.H1
  H2 : Fin2 I.H2
  H3 : Fin2 I.H3
  na0 : ∀ i, 0 < rnorm I.x i
  ny0 : ∀ i, 0 < rnorm (proj I.x I.H1) i
  na1 : ∀ i, 0 < rnorm I.x1 i
  ny1 : ∀ i, 0 < rnorm (proj I.x1 I.H2) i
  na2 : ∀ i, 0 < rnorm I.x2 i
  ny2 : ∀ i, 0 < rnorm (proj I.x2 I.H3) i

end Cert.Spec

end
-- ==== Proof.KI.Payloads.lean ====
import proofs.«131279_j13907104104967_1_alg».proof.Proof.Gen.KernelIdeal.Skeleton
import proofs.«131279_j13907104104967_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandValue

open Idealize.ShloMosaic Idealize.ShloMosaic.ValueIdx
open Cert.KernelIdeal.Gen
open Cert.Spec (A2 layer relu unitRows uproj thresh)
open scoped BigOperators

def row {n : ℕ} (v : (⟨2, ![1, n]⟩ : Shape).Idx → EReal) : Fin n → EReal := fun j => v (ix2 0 j)

section Read
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Read

-- The sum along the lanes, at row `r`, is that row's sum.
theorem rowSum_apply {a b : ℕ} (v : FVec Ideal ⟨2, ![a, b]⟩ .f32) (h : (⟨2, ![a, b]⟩ : Shape).Reduces [1] ⟨1, ![a]⟩) (r : Fin a) :
    multiReduction .add [1] ⟨1, ![a]⟩ v 0x00000000#32 h (.inl rfl) rfl (ix1 r) = ∑ k : Fin b, v (ix2 r k) := by
  refine (Ideal.multiReduction_add_single v 0x00000000#32 h (.inl rfl) rfl (ix1 r)).trans ?_
  refine Finset.sum_congr rfl fun k _ => congrArg v (funext fun c => Fin.ext ?_)
  match c with
  | ⟨0, _⟩ => rfl
  | ⟨1, _⟩ => rfl

-- The sum along the rows, at lane `c`, is that column's sum.
theorem colSum_apply {a b : ℕ} (v : FVec Ideal ⟨2, ![a, b]⟩ .f32) (h : (⟨2, ![a, b]⟩ : Shape).Reduces [0] ⟨1, ![b]⟩) (c : Fin b) :
    multiReduction .add [0] ⟨1, ![b]⟩ v 0x00000000#32 h (.inl rfl) rfl (ix1 c) = ∑ r : Fin a, v (ix2 r c) := by
  refine (Ideal.multiReduction_add_single v 0x00000000#32 h (.inl rfl) rfl (ix1 c)).trans ?_
  refine Finset.sum_congr rfl fun k _ => congrArg v (funext fun d => Fin.ext ?_)
  match d with
  | ⟨0, _⟩ => rfl
  | ⟨1, _⟩ => rfl

theorem ofBits_one_f32 : Ideal.ofBits .f32 0x3F800000#32 = 1 := IdealRules.sign_bit.ideal_onePat .f32
theorem ofBits_posInf_f32 : Ideal.ofBits .f32 0x7F800000#32 = ⊤ := by
  simp [Ideal.ofBits, Ideal.ieee]
theorem ofBits_negInf_f32 : Ideal.ofBits .f32 0xFF800000#32 = ⊥ := by
  simp [Ideal.ofBits, Ideal.ieee]

theorem lift_row {b : ℕ} (v : FVec Ideal ⟨2, ![1, b]⟩ .f32) (h : (⟨2, ![1, b]⟩ : Shape).Reduces [1] ⟨1, ![1]⟩) (u : Fin 1) :
    v ∘ h.lift (ix1 u) = row v :=
  funext fun k => congrArg v (funext fun c => Fin.ext (by
    match c with
    | ⟨0, _⟩ => show u.val = 0; omega
    | ⟨1, _⟩ => rfl))

-- The minimum along the lanes of a one-row array is the fold of `min` from `+∞`: the infimum of the row.
theorem rowMin_apply {b : ℕ} (v : FVec Ideal ⟨2, ![1, b]⟩ .f32) (h : (⟨2, ![1, b]⟩ : Shape).Reduces [1] ⟨1, ![1]⟩) (u : Fin 1) :
    multiReduction .minimumf [1] ⟨1, ![1]⟩ v 0x7F800000#32 h (.inl rfl) rfl (ix1 u) = Finset.univ.inf (row v) := by
  refine (multiReduction_minimumf_eq_fold v 0x7F800000#32 h (.inl rfl) rfl (ix1 u)).trans ?_
  refine (h.fold_filter_drop_single _ _ v (ix1 u)).trans ?_
  rw [lift_row v h u]
  show Finset.fold min (Ideal.ofBits .f32 0x7F800000#32) (row v) Finset.univ = _
  rw [ofBits_posInf_f32]
  rfl

-- The maximum likewise is the fold of `max` from `-∞`: the supremum of the row.
theorem rowMax_apply {b : ℕ} (v : FVec Ideal ⟨2, ![1, b]⟩ .f32) (h : (⟨2, ![1, b]⟩ : Shape).Reduces [1] ⟨1, ![1]⟩) (u : Fin 1) :
    multiReduction .maximumf [1] ⟨1, ![1]⟩ v 0xFF800000#32 h (.inl rfl) rfl (ix1 u) = Finset.univ.sup (row v) := by
  refine (multiReduction_maximumf_eq_fold v 0xFF800000#32 h (.inl rfl) rfl (ix1 u)).trans ?_
  refine (h.fold_filter_drop_single _ _ v (ix1 u)).trans ?_
  rw [lift_row v h u]
  show Finset.fold max (Ideal.ofBits .f32 0xFF800000#32) (row v) Finset.univ = _
  rw [ofBits_negInf_f32]
  rfl

-- Rows scaled to unit length: each entry divided by the square root of its row's sum of squares.
theorem unitRows_read {B X : ℕ} (x : FVec Ideal ⟨2, ![B, X]⟩ .f32) (hr : (⟨2, ![B, X]⟩ : Shape).Reduces [1] ⟨1, ![B]⟩)
    (hc : (⟨1, ![B]⟩ : Shape).ShapeCasts ⟨2, ![B, 1]⟩) (hb : (⟨2, ![B, 1]⟩ : Shape).Broadcasts ⟨2, ![B, X]⟩)
    (r : Fin B) (k : Fin X) :
    divf x (broadcastTo ⟨2, ![B, X]⟩ (sqrt (shapeCast ⟨2, ![B, 1]⟩
        (multiReduction .add [1] ⟨1, ![B]⟩ (mulf x x) 0x00000000#32 hr (.inl rfl) rfl) hc)) hb) (ix2 r k)
      = unitRows (A2 x) r k := by
  show Ideal.div (x (ix2 r k)) _ = Ideal.div (x (ix2 r k)) (Ideal.sqrt (∑ k', x (ix2 r k') * x (ix2 r k')))
  refine congrArg (Ideal.div (x (ix2 r k))) ?_
  refine (broadcastTo_a1_ab_apply _ hb r k).trans ?_
  show Ideal.sqrt (shapeCast _ _ hc (ix2 r 0)) = _
  refine congrArg Ideal.sqrt ?_
  refine (shapeCast_a_a1_apply _ hc r 0).trans ?_
  exact rowSum_apply (mulf x x) hr r

section Dot
variable {B X Y : ℕ} (D : DotDims ⟨2, ![B, X]⟩ ⟨2, ![X, Y]⟩ ⟨2, ![B, Y]⟩) (hD : D = .plain B X Y)
  (x : FVec Ideal ⟨2, ![B, X]⟩ .f32) (W : FVec Ideal ⟨2, ![Y, X]⟩ .f32)
  (ht : (⟨2, ![Y, X]⟩ : Shape).Transposes [1, 0] ⟨2, ![X, Y]⟩) (r : Fin B) (j : Fin Y)

-- The product of a `[B, X]` array with the transpose of a `[Y, X]` one, accumulated into zero.
abbrev mmT : FVec Ideal ⟨2, ![B, Y]⟩ .f32 :=
  matmul D (some .fp32) x (transpose ⟨2, ![X, Y]⟩ [1, 0] W ht) (constant ⟨2, ![B, Y]⟩ .f32 0x00000000#32)

include hD

-- With the plain dimension numbers it reads, at `(r, j)`, row `r` of the first against row `j` of the second.
theorem mmT_apply : mmT D x W ht (ix2 r j) = ∑ k : Fin X, x (ix2 r k) * W (ix2 j k) := by
  subst hD
  refine (Ideal.matmul_constant_zero_apply _ _ x _ (ix2 r j)).trans ?_
  rw [← Equiv.sum_comp (contrEquiv1 (.plain B X Y) X rfl rfl).symm]
  refine Finset.sum_congr rfl fun k _ => ?_
  have hk := contrEquiv1_symm_val (.plain B X Y) X rfl rfl k
  have el : (DotDims.plain B X Y).lhsIdx (ix2 r j) ((contrEquiv1 (.plain B X Y) X rfl rfl).symm k) = ix2 r k :=
    funext (Fin.forall_fin_two.2 ⟨rfl, Fin.ext hk⟩)
  have er : (DotDims.plain B X Y).rhsIdx (ix2 r j) ((contrEquiv1 (.plain B X Y) X rfl rfl).symm k) = ix2 k j :=
    funext (Fin.forall_fin_two.2 ⟨Fin.ext hk, rfl⟩)
  rw [el, er]
  exact congrArg (x (ix2 r k) * ·) (transpose_ix2_apply W ht k j)

-- The unit rows of the product of unit rows `xn` with `Wᵀ`.
theorem uproj_read {xn : FVec Ideal ⟨2, ![B, X]⟩ .f32} (hxn : ∀ r k, xn (ix2 r k) = unitRows (A2 x) r k)
    (hr : (⟨2, ![B, Y]⟩ : Shape).Reduces [1] ⟨1, ![B]⟩) (hc : (⟨1, ![B]⟩ : Shape).ShapeCasts ⟨2, ![B, 1]⟩)
    (hb : (⟨2, ![B, 1]⟩ : Shape).Broadcasts ⟨2, ![B, Y]⟩) :
    divf (mmT D xn W ht) (broadcastTo ⟨2, ![B, Y]⟩ (sqrt (shapeCast ⟨2, ![B, 1]⟩ (multiReduction .add [1] ⟨1, ![B]⟩
        (mulf (mmT D xn W ht) (mmT D xn W ht)) 0x00000000#32 hr (.inl rfl) rfl) hc)) hb) (ix2 r j)
      = uproj (A2 x) (A2 W) r j :=
  (unitRows_read (mmT D xn W ht) hr hc hb r j).trans (congrArg (fun f => unitRows f r j) (funext₂ fun r j =>
    (mmT_apply D hD xn W ht r j).trans (Finset.sum_congr rfl fun k _ => congrArg (· * W (ix2 j k)) (hxn r k))))

-- A linear layer with bias, rectified.
theorem relu_read (b : FVec Ideal ⟨2, ![1, Y]⟩ .f32) (hsb : (⟨2, ![1, Y]⟩ : Shape).ShapeCasts ⟨2, ![1, Y]⟩)
    (hb : (⟨2, ![1, Y]⟩ : Shape).Broadcasts ⟨2, ![B, Y]⟩) :
    maximumf (addf (mmT D x W ht) (broadcastTo ⟨2, ![B, Y]⟩ (shapeCast ⟨2, ![1, Y]⟩ b hsb) hb))
        (broadcast ⟨2, ![B, Y]⟩ (Scalar.ofBits .f32 0x00000000#32)) (ix2 r j)
      = relu (A2 x) (A2 W) (row b) r j := by
  rw [shapeCast_self b hsb]
  show max (mmT D x W ht (ix2 r j) + broadcastTo _ b hb (ix2 r j)) (Ideal.ofBits .f32 0x00000000#32)
    = max ((∑ k, x (ix2 r k) * W (ix2 j k)) + b (ix2 0 j)) 0
  rw [broadcastTo_1b_ab_apply b hb r j, Ideal.ofBits_zero_f32, mmT_apply D hD x W ht r j]

-- The rectified layer, masked lane by lane.
theorem layer_read (b mk : FVec Ideal ⟨2, ![1, Y]⟩ .f32) (hsb hsm : (⟨2, ![1, Y]⟩ : Shape).ShapeCasts ⟨2, ![1, Y]⟩)
    (hb hm : (⟨2, ![1, Y]⟩ : Shape).Broadcasts ⟨2, ![B, Y]⟩) :
    mulf (maximumf (addf (mmT D x W ht) (broadcastTo ⟨2, ![B, Y]⟩ (shapeCast ⟨2, ![1, Y]⟩ b hsb) hb))
        (broadcast ⟨2, ![B, Y]⟩ (Scalar.ofBits .f32 0x00000000#32)))
      (broadcastTo ⟨2, ![B, Y]⟩ (shapeCast ⟨2, ![1, Y]⟩ mk hsm) hm) (ix2 r j)
      = layer (A2 x) (A2 W) (row b) (row mk) r j := by
  show _ * broadcastTo _ (shapeCast _ mk hsm) hm (ix2 r j) = relu (A2 x) (A2 W) (row b) r j * mk (ix2 0 j)
  rw [relu_read D hD x W ht r j b hsb hb, shapeCast_self mk hsm, broadcastTo_1b_ab_apply mk hm r j]

end Dot

-- The first accumulator's step: the old value plus the total of `yn²`, lanes summed first within each row, then the rows.
theorem acc1_read {B Y : ℕ} {yn : FVec Ideal ⟨2, ![B, Y]⟩ .f32} {u : Fin B → Fin Y → EReal} (hyn : ∀ r j, yn (ix2 r j) = u r j)
    (acc : FVec Ideal ⟨2, ![1, 1]⟩ .f32) (h1 : (⟨2, ![B, Y]⟩ : Shape).Reduces [1] ⟨1, ![B]⟩)
    (hc : (⟨1, ![B]⟩ : Shape).ShapeCasts ⟨2, ![B, 1]⟩) (h0 : (⟨2, ![B, 1]⟩ : Shape).Reduces [0] ⟨1, ![1]⟩)
    (hc1 : (⟨1, ![1]⟩ : Shape).ShapeCasts ⟨2, ![1, 1]⟩) (hs : (⟨2, ![1, 1]⟩ : Shape).ShapeCasts ⟨2, ![1, 1]⟩) :
    shapeCast ⟨2, ![1, 1]⟩ (addf acc (shapeCast ⟨2, ![1, 1]⟩ (multiReduction .add [0] ⟨1, ![1]⟩
        (shapeCast ⟨2, ![B, 1]⟩ (multiReduction .add [1] ⟨1, ![B]⟩ (mulf yn yn) 0x00000000#32 h1 (.inl rfl) rfl) hc)
        0x00000000#32 h0 (.inl rfl) rfl) hc1)) hs (ix2 0 0)
      = acc (ix2 0 0) + ∑ r : Fin B, ∑ j : Fin Y, u r j * u r j := by
  rw [shapeCast_self _ hs]
  show acc (ix2 0 0) + shapeCast _ _ hc1 (ix2 0 0) = _
  refine congrArg (acc (ix2 0 0) + ·) ?_
  refine (shapeCast_a_1a_apply _ hc1 0 0).trans ?_
  refine (colSum_apply _ h0 0).trans ?_
  refine Finset.sum_congr rfl fun r _ => ?_
  refine (shapeCast_a_a1_apply _ hc r 0).trans ?_
  refine (rowSum_apply (mulf yn yn) h1 r).trans ?_
  exact Finset.sum_congr rfl fun j _ => congrArg₂ (· * ·) (hyn r j) (hyn r j)

-- The second accumulator's step: the old value plus, lane by lane, the sum over the rows of `yn` times the row sum of `xn`.
theorem acc2_read {B X Y : ℕ} {xn : FVec Ideal ⟨2, ![B, X]⟩ .f32} {yn : FVec Ideal ⟨2, ![B, Y]⟩ .f32}
    {a : Fin B → Fin X → EReal} {u : Fin B → Fin Y → EReal} (hxn : ∀ r k, xn (ix2 r k) = a r k)
    (hyn : ∀ r j, yn (ix2 r j) = u r j) (acc : FVec Ideal ⟨2, ![1, Y]⟩ .f32)
    (h1 : (⟨2, ![B, X]⟩ : Shape).Reduces [1] ⟨1, ![B]⟩) (hc : (⟨1, ![B]⟩ : Shape).ShapeCasts ⟨2, ![B, 1]⟩)
    (hb : (⟨2, ![B, 1]⟩ : Shape).Broadcasts ⟨2, ![B, Y]⟩) (h0 : (⟨2, ![B, Y]⟩ : Shape).Reduces [0] ⟨1, ![Y]⟩)
    (hc1 : (⟨1, ![Y]⟩ : Shape).ShapeCasts ⟨2, ![1, Y]⟩) (hs : (⟨2, ![1, Y]⟩ : Shape).ShapeCasts ⟨2, ![1, Y]⟩) (j : Fin Y) :
    shapeCast ⟨2, ![1, Y]⟩ (addf acc (shapeCast ⟨2, ![1, Y]⟩ (multiReduction .add [0] ⟨1, ![Y]⟩
        (mulf yn (broadcastTo ⟨2, ![B, Y]⟩ (shapeCast ⟨2, ![B, 1]⟩
          (multiReduction .add [1] ⟨1, ![B]⟩ xn 0x00000000#32 h1 (.inl rfl) rfl) hc) hb))
        0x00000000#32 h0 (.inl rfl) rfl) hc1)) hs (ix2 0 j)
      = acc (ix2 0 j) + ∑ r : Fin B, u r j * ∑ k : Fin X, a r k := by
  rw [shapeCast_self _ hs]
  show acc (ix2 0 j) + shapeCast _ _ hc1 (ix2 0 j) = _
  refine congrArg (acc (ix2 0 j) + ·) ?_
  refine (shapeCast_a_1a_apply _ hc1 0 j).trans ?_
  refine (colSum_apply _ h0 j).trans ?_
  refine Finset.sum_congr rfl fun r _ => ?_
  show yn (ix2 r j) * broadcastTo _ _ hb (ix2 r j) = _
  rw [hyn r j, broadcastTo_a1_ab_apply _ hb r j, shapeCast_a_a1_apply _ hc r 0, rowSum_apply xn h1 r]
  exact congrArg (u r j * ·) (Finset.sum_congr rfl fun k _ => hxn r k)

-- The score the kernel thresholds, lane by lane: `(1 - 1 · s / n) · sh + 1 · d`.
theorem score_read {Y : ℕ} (n : BitVec 32) (sh : FVec Ideal ⟨2, ![1, Y]⟩ .f32) (s : FVec Ideal ⟨2, ![1, 1]⟩ .f32)
    (d : FVec Ideal ⟨2, ![1, Y]⟩ .f32) (hb : (⟨2, ![1, 1]⟩ : Shape).Broadcasts ⟨2, ![1, Y]⟩) (j : Fin Y) :
    addf (mulf (broadcastTo ⟨2, ![1, Y]⟩ (subf (broadcast ⟨2, ![1, 1]⟩ (Scalar.ofBits .f32 0x3F800000#32))
          (mulf (broadcast ⟨2, ![1, 1]⟩ (Scalar.ofBits .f32 0x3F800000#32))
            (divf s (broadcast ⟨2, ![1, 1]⟩ (Scalar.ofBits .f32 n))))) hb) sh)
        (mulf (broadcast ⟨2, ![1, Y]⟩ (Scalar.ofBits .f32 0x3F800000#32)) d) (ix2 0 j)
      = (1 - 1 * Ideal.div (s (ix2 0 0)) (Ideal.ofBits .f32 n)) * sh (ix2 0 j) + 1 * d (ix2 0 j) := by
  simp only [addf_apply, mulf_apply, subf_apply, divf_apply, broadcast_apply, broadcastTo_a1_ab_apply]
  show (Ideal.ofBits .f32 0x3F800000#32 - Ideal.ofBits .f32 0x3F800000#32 * Ideal.div (s (ix2 0 0)) (Ideal.ofBits .f32 n))
      * sh (ix2 0 j) + Ideal.ofBits .f32 0x3F800000#32 * d (ix2 0 j) = _
  rw [ofBits_one_f32]

-- A selection on an ordered comparison is the corresponding `if`.
theorem select_olt (a b c d : EReal) : Scalar.select (Ideal.cmp .olt a b) c d = if a < b then c else d := by
  by_cases h : a < b
  · rw [if_pos h]
    show Scalar.select (BitVec.ofBool (decide (a < b))) c d = c
    rw [decide_eq_true h]
    exact select_one c d
  · rw [if_neg h]
    show Scalar.select (BitVec.ofBool (decide (a < b))) c d = d
    rw [decide_eq_false h]
    exact select_zero c d

-- A score row `sc`, read as `f`, min–max normalised and thresholded: `0` below the threshold, else `1`.
theorem thresh_read {Y : ℕ} {sc : FVec Ideal ⟨2, ![1, Y]⟩ .f32} {f : Fin Y → EReal} (hsc : ∀ j, sc (ix2 0 j) = f j)
    (hmin hmax : (⟨2, ![1, Y]⟩ : Shape).Reduces [1] ⟨1, ![1]⟩)
    (hc : (⟨1, ![1]⟩ : Shape).ShapeCasts ⟨2, ![1, 1]⟩) (hb : (⟨2, ![1, 1]⟩ : Shape).Broadcasts ⟨2, ![1, Y]⟩)
    (ε hlf : BitVec 32) (j : Fin Y) :
    (select (cmpf .olt
        (divf (subf sc (broadcastTo ⟨2, ![1, Y]⟩ (shapeCast ⟨2, ![1, 1]⟩
            (multiReduction .minimumf [1] ⟨1, ![1]⟩ sc 0x7F800000#32 hmin (.inl rfl) rfl) hc) hb))
          (broadcastTo ⟨2, ![1, Y]⟩ (addf (subf
              (shapeCast ⟨2, ![1, 1]⟩ (multiReduction .maximumf [1] ⟨1, ![1]⟩ sc 0xFF800000#32 hmax (.inl rfl) rfl) hc)
              (shapeCast ⟨2, ![1, 1]⟩ (multiReduction .minimumf [1] ⟨1, ![1]⟩ sc 0x7F800000#32 hmin (.inl rfl) rfl) hc))
            (broadcast ⟨2, ![1, 1]⟩ (Scalar.ofBits .f32 ε))) hb))
        (broadcast ⟨2, ![1, Y]⟩ (Scalar.ofBits .f32 hlf)))
      (broadcast ⟨2, ![1, Y]⟩ (Scalar.ofBits .f32 0x00000000#32))
      (broadcast ⟨2, ![1, Y]⟩ (Scalar.ofBits .f32 0x3F800000#32)) : FVec Ideal ⟨2, ![1, Y]⟩ .f32) (ix2 0 j)
      = thresh f (Ideal.ofBits .f32 ε) (Ideal.ofBits .f32 hlf) j := by
  rw [← (funext hsc : row sc = f)]
  simp only [select_apply, cmpf_apply, divf_apply, subf_apply, addf_apply, broadcast_apply, broadcastTo_a1_ab_apply,
    shapeCast_a_1a_apply]
  rw [rowMin_apply sc hmin 0, rowMax_apply sc hmax 0]
  show Scalar.select _ (Ideal.ofBits .f32 0x00000000#32) (Ideal.ofBits .f32 0x3F800000#32) = _
  rw [Ideal.ofBits_zero_f32, ofBits_one_f32]
  exact select_olt _ _ _ _

-- A zero splat reads zero.
theorem zero_read {s : Shape} (h : s.ShapeCasts s) (i : s.Idx) :
    (shapeCast s (broadcast s (Scalar.ofBits .f32 0x00000000#32)) h : FVec Ideal s .f32) i = 0 := by
  rw [shapeCast_self]
  exact Ideal.ofBits_zero_f32

theorem k0_pay6_eq (v : Vec Ideal S1x256 .f32) : k0_pay6 v = v := shapeCast_self v _

theorem k0_pay7_apply (x : Vec Ideal S512x1024 .f32) (W : Vec Ideal S256x1024 .f32) (b mk : Vec Ideal S1x256 .f32)
    (r : Fin 512) (j : Fin 256) :
    k0_pay7 x W b mk (ix2 r j) = layer (A2 x) (A2 W) (row b) (row mk) r j := by
  unfold k0_pay7
  exact layer_read _ rfl x W _ r j b mk _ _ _ _

theorem k0_pay8_apply (x : Vec Ideal S512x1024 .f32) (r : Fin 512) (k : Fin 1024) :
    k0_pay8 x (ix2 r k) = unitRows (A2 x) r k := by
  unfold k0_pay8
  exact unitRows_read x _ _ _ r k

theorem k0_pay9_apply (x : Vec Ideal S512x1024 .f32) (H : Vec Ideal S256x1024 .f32) (r : Fin 512) (j : Fin 256) :
    k0_pay9 x H (ix2 r j) = uproj (A2 x) (A2 H) r j := by
  unfold k0_pay9
  exact uproj_read _ rfl x H _ r j (k0_pay8_apply x) _ _ _

theorem k0_pay1_apply (x : Vec Ideal S512x1024 .f32) (H : Vec Ideal S256x1024 .f32) (acc : Vec Ideal S1x1 .f32) :
    k0_pay1 (k0_pay10 x H) acc (ix2 0 0)
      = acc (ix2 0 0) + ∑ r : Fin 512, ∑ j : Fin 256, uproj (A2 x) (A2 H) r j * uproj (A2 x) (A2 H) r j := by
  unfold k0_pay1 k0_pay10
  exact acc1_read (k0_pay9_apply x H) acc _ _ _ _ _

theorem k0_pay2_apply (x : Vec Ideal S512x1024 .f32) (H : Vec Ideal S256x1024 .f32) (acc : Vec Ideal S1x256 .f32)
    (j : Fin 256) :
    k0_pay2 (k0_pay8 x) (k0_pay9 x H) acc (ix2 0 j)
      = acc (ix2 0 j) + ∑ r : Fin 512, uproj (A2 x) (A2 H) r j * ∑ k : Fin 1024, unitRows (A2 x) r k := by
  unfold k0_pay2
  exact acc2_read (k0_pay8_apply x) (k0_pay9_apply x H) acc _ _ _ _ _ _ j

theorem k0_pay4_apply : (k0_pay4 (F := Ideal)) (ix2 0 0) = 0 := zero_read _ _

theorem k0_pay5_apply (j : Fin 256) : (k0_pay5 (F := Ideal)) (ix2 0 j) = 0 := zero_read _ _

theorem k0_pay3_apply (sh : FVec Ideal S1x256 .f32) (s : Vec Ideal S1x1 .f32) (d : Vec Ideal S1x256 .f32) (j : Fin 256) :
    k0_pay3 sh s d (ix2 0 j)
      = thresh (fun j' => (1 - 1 * Ideal.div (s (ix2 0 0)) Cert.Spec.n1) * sh (ix2 0 j') + 1 * d (ix2 0 j'))
          Cert.Spec.eps Cert.Spec.half j := by
  unfold k0_pay3
  exact thresh_read (fun j' => score_read _ sh s d _ j') _ _ _ _ _ _ j

theorem k1_pay6_eq (v : Vec Ideal S512x256 .f32) : k1_pay6 v = v := shapeCast_self v _

theorem k1_pay7_eq (v : Vec Ideal S1x128 .f32) : k1_pay7 v = v := shapeCast_self v _

theorem k1_pay8_apply (x : Vec Ideal S512x256 .f32) (W : Vec Ideal S128x256 .f32) (b mk : Vec Ideal S1x128 .f32)
    (r : Fin 512) (j : Fin 128) :
    k1_pay8 x W b mk (ix2 r j) = layer (A2 x) (A2 W) (row b) (row mk) r j := by
  unfold k1_pay8
  rw [k1_pay6_eq]
  exact layer_read _ rfl x W _ r j b mk _ _ _ _

theorem k1_pay9_apply (x : Vec Ideal S512x256 .f32) (r : Fin 512) (k : Fin 256) :
    k1_pay9 x (ix2 r k) = unitRows (A2 x) r k := by
  unfold k1_pay9
  rw [k1_pay6_eq]
  exact unitRows_read x _ _ _ r k

theorem k1_pay10_apply (x : Vec Ideal S512x256 .f32) (H : Vec Ideal S128x256 .f32) (r : Fin 512) (j : Fin 128) :
    k1_pay10 x H (ix2 r j) = uproj (A2 x) (A2 H) r j := by
  unfold k1_pay10
  exact uproj_read _ rfl x H _ r j (k1_pay9_apply x) _ _ _

theorem k1_pay1_apply (x : Vec Ideal S512x256 .f32) (H : Vec Ideal S128x256 .f32) (acc : Vec Ideal S1x1 .f32) :
    k1_pay1 (k1_pay10 x H) acc (ix2 0 0)
      = acc (ix2 0 0) + ∑ r : Fin 512, ∑ j : Fin 128, uproj (A2 x) (A2 H) r j * uproj (A2 x) (A2 H) r j := by
  unfold k1_pay1
  exact acc1_read (k1_pay10_apply x H) acc _ _ _ _ _

theorem k1_pay2_apply (x : Vec Ideal S512x256 .f32) (H : Vec Ideal S128x256 .f32) (acc : Vec Ideal S1x128 .f32)
    (j : Fin 128) :
    k1_pay2 (k1_pay9 x) (k1_pay10 x H) acc (ix2 0 j)
      = acc (ix2 0 j) + ∑ r : Fin 512, uproj (A2 x) (A2 H) r j * ∑ k : Fin 256, unitRows (A2 x) r k := by
  unfold k1_pay2
  exact acc2_read (k1_pay9_apply x) (k1_pay10_apply x H) acc _ _ _ _ _ _ j

theorem k1_pay4_apply : (k1_pay4 (F := Ideal)) (ix2 0 0) = 0 := zero_read _ _

theorem k1_pay5_apply (j : Fin 128) : (k1_pay5 (F := Ideal)) (ix2 0 j) = 0 := zero_read _ _

theorem k1_pay3_apply (sh : FVec Ideal S1x128 .f32) (s : Vec Ideal S1x1 .f32) (d : Vec Ideal S1x128 .f32) (j : Fin 128) :
    k1_pay3 sh s d (ix2 0 j)
      = thresh (fun j' => (1 - 1 * Ideal.div (s (ix2 0 0)) Cert.Spec.n2) * sh (ix2 0 j') + 1 * d (ix2 0 j'))
          Cert.Spec.eps Cert.Spec.half j := by
  unfold k1_pay3
  exact thresh_read (fun j' => score_read _ sh s d _ j') _ _ _ _ _ _ j

theorem k2_pay6_eq (v : Vec Ideal S512x128 .f32) : k2_pay6 v = v := shapeCast_self v _

theorem k2_pay7_eq (v : Vec Ideal S1x64 .f32) : k2_pay7 v = v := shapeCast_self v _

theorem k2_pay8_apply (x : Vec Ideal S512x128 .f32) (W : Vec Ideal S64x128 .f32) (b mk : Vec Ideal S1x64 .f32)
    (r : Fin 512) (j : Fin 64) :
    k2_pay8 x W b mk (ix2 r j) = layer (A2 x) (A2 W) (row b) (row mk) r j := by
  unfold k2_pay8
  rw [k2_pay6_eq]
  exact layer_read _ rfl x W _ r j b mk _ _ _ _

theorem k2_pay9_apply (x : Vec Ideal S512x128 .f32) (r : Fin 512) (k : Fin 128) :
    k2_pay9 x (ix2 r k) = unitRows (A2 x) r k := by
  unfold k2_pay9
  rw [k2_pay6_eq]
  exact unitRows_read x _ _ _ r k

theorem k2_pay10_apply (x : Vec Ideal S512x128 .f32) (H : Vec Ideal S64x128 .f32) (r : Fin 512) (j : Fin 64) :
    k2_pay10 x H (ix2 r j) = uproj (A2 x) (A2 H) r j := by
  unfold k2_pay10
  exact uproj_read _ rfl x H _ r j (k2_pay9_apply x) _ _ _

theorem k2_pay1_apply (x : Vec Ideal S512x128 .f32) (H : Vec Ideal S64x128 .f32) (acc : Vec Ideal S1x1 .f32) :
    k2_pay1 (k2_pay10 x H) acc (ix2 0 0)
      = acc (ix2 0 0) + ∑ r : Fin 512, ∑ j : Fin 64, uproj (A2 x) (A2 H) r j * uproj (A2 x) (A2 H) r j := by
  unfold k2_pay1
  exact acc1_read (k2_pay10_apply x H) acc _ _ _ _ _

theorem k2_pay2_apply (x : Vec Ideal S512x128 .f32) (H : Vec Ideal S64x128 .f32) (acc : Vec Ideal S1x64 .f32)
    (j : Fin 64) :
    k2_pay2 (k2_pay9 x) (k2_pay10 x H) acc (ix2 0 j)
      = acc (ix2 0 j) + ∑ r : Fin 512, uproj (A2 x) (A2 H) r j * ∑ k : Fin 128, unitRows (A2 x) r k := by
  unfold k2_pay2
  exact acc2_read (k2_pay9_apply x) (k2_pay10_apply x H) acc _ _ _ _ _ _ j

theorem k2_pay4_apply : (k2_pay4 (F := Ideal)) (ix2 0 0) = 0 := zero_read _ _

theorem k2_pay5_apply (j : Fin 64) : (k2_pay5 (F := Ideal)) (ix2 0 j) = 0 := zero_read _ _

theorem k2_pay3_apply (sh : FVec Ideal S1x64 .f32) (s : Vec Ideal S1x1 .f32) (d : Vec Ideal S1x64 .f32) (j : Fin 64) :
    k2_pay3 sh s d (ix2 0 j)
      = thresh (fun j' => (1 - 1 * Ideal.div (s (ix2 0 0)) Cert.Spec.n3) * sh (ix2 0 j') + 1 * d (ix2 0 j'))
          Cert.Spec.eps Cert.Spec.half j := by
  unfold k2_pay3
  exact thresh_read (fun j' => score_read _ sh s d _ j') _ _ _ _ _ _ j

theorem k3_pay1_apply (x : Vec Ideal S1024x64 .f32) (W : Vec Ideal S1000x64 .f32) (b : Vec Ideal S1x1000 .f32)
    (r : Fin 1024) (j : Fin 1000) :
    k3_pay1 x W b (ix2 r j) = relu (A2 x) (A2 W) (row b) r j := by
  unfold k3_pay1
  rw [shapeCast_self x]
  exact relu_read _ rfl x W _ r j b _ _

end Cert.KernelIdeal.HandValue

end
-- ==== Proof.LibMoments.lean ====
import Mathlib.Data.Fintype.BigOperators
import Mathlib.Algebra.BigOperators.Fin
import Mathlib.Logic.Equiv.Fin.Basic

open scoped BigOperators

namespace Cert.Moments

-- Row r of block t lies in block t: bk·t + r < bk·(t+1) ≤ bk·nb.
theorem glue_lt {nb bk : ℕ} (t : Fin nb) (r : Fin bk) : bk * t.val + r.val < nb * bk :=
  Nat.mul_comm nb bk ▸ Nat.lt_of_lt_of_le (Nat.add_lt_add_left r.isLt _) (Nat.mul_le_mul_left bk t.isLt)

-- The pairs (block, row in the block) and the indices bk·t + r correspond one to one.
theorem sum_blocks {M : Type*} [AddCommMonoid M] (nb bk : ℕ) (g : Fin (nb * bk) → M) :
    ∑ t : Fin nb, ∑ r : Fin bk, g ⟨bk * t.val + r.val, glue_lt t r⟩ = ∑ i : Fin (nb * bk), g i := by
  rw [← Fintype.sum_prod_type', ← Equiv.sum_comp finProdFinEquiv g]
  exact Fintype.sum_congr _ _ fun p => congrArg g (Fin.ext (Nat.add_comm _ _))

-- An accumulator with A 0 = a and A (t+1) = A t + b t ends at a + ∑ b, by induction on the number of steps.
theorem rec_add_eq_sum {M : Type*} [AddCommMonoid M] (nb : ℕ) (b : Fin nb → M) (A : ℕ → M) (a : M)
    (h0 : A 0 = a) (hstep : ∀ t : Fin nb, A (t.val + 1) = A t.val + b t) :
    A nb = a + ∑ t : Fin nb, b t := by
  induction nb with
  | zero => simpa using h0
  | succ k ih =>
    rw [Fin.sum_univ_castSucc, ← add_assoc,
      ← ih (fun t => b t.castSucc) (fun t => by simpa using hstep t.castSucc)]
    simpa using hstep (Fin.last k)

end Cert.Moments
-- ==== Proof.TileSums.lean ====
import proofs.«131279_j13907104104967_1_alg».proof.Proof.Spec
import proofs.«131279_j13907104104967_1_alg».proof.Proof.LibMoments

noncomputable section

namespace Cert.Spec

open Idealize.ShloMosaic
open scoped BigOperators

theorem glue_lt16 (t : Fin 16) (r : Fin 512) : 512 * t.val + r.val < 8192 :=
  Cert.Moments.glue_lt t r

def tile {X : ℕ} (a : Fin 8192 → Fin X → EReal) (t : Fin 16) : Fin 512 → Fin X → EReal :=
  fun r k => a ⟨512 * t.val + r.val, by have := t.isLt; have := r.isLt; omega⟩ k

-- From zero, fed one tile's sum at a time, an accumulator ends at the sum over the batch: tiles and rows pair off with the batch's rows.
theorem acc_tiles {M : Type*} [AddCommMonoid M] (g : Fin 8192 → M) (A : ℕ → M) (h0 : A 0 = 0)
    (hstep : ∀ t : Fin 16, A (t.val + 1) = A t.val + ∑ r : Fin 512, g ⟨512 * t.val + r.val, glue_lt16 t r⟩) :
    A 16 = ∑ i, g i := by
  rw [Cert.Moments.rec_add_eq_sum 16 _ A 0 h0 hstep, zero_add]
  exact Cert.Moments.sum_blocks 16 512 g

theorem acc_theta {X Y : ℕ} (a : Fin 8192 → Fin X → EReal) (H : Fin Y → Fin X → EReal) (A : ℕ → EReal) (h0 : A 0 = 0)
    (hstep : ∀ t : Fin 16, A (t.val + 1)
      = A t.val + ∑ r : Fin 512, ∑ j : Fin Y, uproj (tile a t) H r j * uproj (tile a t) H r j) :
    A 16 = ∑ i : Fin 8192, ∑ j : Fin Y, uproj a H i j * uproj a H i j :=
  acc_tiles (fun i => ∑ j : Fin Y, uproj a H i j * uproj a H i j) A h0 hstep

theorem acc_sdot {X Y : ℕ} (a : Fin 8192 → Fin X → EReal) (H : Fin Y → Fin X → EReal) (D : ℕ → Fin Y → EReal)
    (h0 : ∀ j, D 0 j = 0)
    (hstep : ∀ (t : Fin 16) (j : Fin Y), D (t.val + 1) j
      = D t.val j + ∑ r : Fin 512, uproj (tile a t) H r j * ∑ k : Fin X, unitRows (tile a t) r k) :
    ∀ j, D 16 j = ∑ i : Fin 8192, uproj a H i j * ∑ k : Fin X, unitRows a i k := fun j =>
  acc_tiles (fun i => uproj a H i j * ∑ k : Fin X, unitRows a i k) (fun m => D m j) (h0 j) fun t => hstep t j

theorem scoreKer_of_acc {X Y : ℕ} (a : Fin 8192 → Fin X → EReal) (H : Fin Y → Fin X → EReal) (n : EReal) (S : EReal)
    (D : Fin Y → EReal) (hS : S = ∑ i, ∑ j, uproj a H i j * uproj a H i j)
    (hD : ∀ j, D j = ∑ i, uproj a H i j * ∑ k, unitRows a i k) :
    (fun j => (1 - 1 * Ideal.div S n) * (∑ k, H j k) + 1 * D j) = scoreKer a H n := by
  funext j
  rw [hS, hD j]
  rfl

end Cert.Spec

end
-- ==== Proof.KI.Glue0.lean ====
import proofs.«131279_j13907104104967_1_alg».proof.Proof.KI.Reg0
import proofs.«131279_j13907104104967_1_alg».proof.Proof.KI.Payloads
import proofs.«131279_j13907104104967_1_alg».proof.Proof.TileSums
import Idealize.ShloMosaic.Lib.Pipeline.Value
import Idealize.ShloMosaic.Lib.ValueIdx

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.Spec (A2 layer relu unitRows uproj thresh scoreKer tile)
open scoped BigOperators

section Region0
variable (V : (c : Dev nD) → (b : Ref sig .tc) → Buf (Elt Ideal) ((c : Thread nD τ).loc b))

abbrev xA0 (c : Dev nD) : S8192x1024.Idx → EReal := V c (Pipeline.arrRef spec0 0)
abbrev WA0 (c : Dev nD) : S256x1024.Idx → EReal := V c (Pipeline.arrRef spec0 1)
abbrev bA0 (c : Dev nD) : S1x256.Idx → EReal := V c (Pipeline.arrRef spec0 2)
abbrev mkA0 (c : Dev nD) : S1x256.Idx → EReal := V c (Pipeline.arrRef spec0 3)
abbrev HA0 (c : Dev nD) : S256x1024.Idx → EReal := V c (Pipeline.arrRef spec0 4)
abbrev shA0 (c : Dev nD) : S1x256.Idx → EReal := V c (Pipeline.arrRef spec0 5)

abbrev G0_6 (c : Dev nD) : S8192x256.Idx → EReal := fun i =>
  layer (A2 (xA0 V c)) (A2 (WA0 V c)) (row (bA0 V c)) (row (mkA0 V c)) (i 0) (i 1)
abbrev G0_7 (c : Dev nD) : S1x256.Idx → EReal := fun i =>
  thresh (scoreKer (A2 (xA0 V c)) (A2 (HA0 V c)) Cert.Spec.n1) Cert.Spec.eps Cert.Spec.half (i 1)

theorem N0_eq : cfg0.N = 16 := N_0

private theorem idx0 : ∀ t : Fin cfg0.N,
    (win0_0.index t (0 : Fin 2) = t.val ∧ win0_0.index t (1 : Fin 2) = 0
      ∧ win0_6.index t (0 : Fin 2) = t.val ∧ win0_6.index t (1 : Fin 2) = 0)
    ∧ ∀ a : Fin 2, win0_1.index t a = 0 ∧ win0_2.index t a = 0 ∧ win0_3.index t a = 0 ∧ win0_4.index t a = 0
      ∧ win0_5.index t a = 0 ∧ win0_7.index t a = 0 :=
  (by decide +kernel : ∀ t : Fin grid0.N, _)

theorem emb0_6 (t : Fin cfg0.N) (y : S512x256.Idx) :
    (((cfg0.win 6).blk t).view.emb y : S8192x256.Idx)
      = ix2 ⟨512 * t.val + (y 0).val, Cert.Spec.glue_lt16 (t.cast N0_eq) (y 0)⟩ (y 1) := by
  obtain ⟨⟨-, -, e, z⟩, -⟩ := idx0 t
  funext a; apply Fin.ext
  match a with
  | ⟨0, _⟩ => show win0_6.index t (0 : Fin 2) * 512 + 1 * (y 0).val = 512 * t.val + (y 0).val; omega
  | ⟨1, _⟩ => exact win0_6.rect_emb_val_of_index_zero t 1 z y

theorem emb0_7 (t : Fin cfg0.N) (y : S1x256.Idx) : (((cfg0.win 7).blk t).view.emb y : S1x256.Idx) = y :=
  funext fun a => Fin.ext (win0_7.rect_emb_val_of_index_zero t a ((idx0 t).2 a).2.2.2.2.2 y)

private theorem tile0 (c : Dev nD) (t : Fin cfg0.N) : A2 (iblk0 V c 0 t) = tile (A2 (xA0 V c)) (t.cast N0_eq) := by
  obtain ⟨⟨e, z, -⟩, -⟩ := idx0 t
  funext r k; refine congrArg (V c _) (funext fun a => Fin.ext ?_)
  match a with
  | ⟨0, _⟩ => show win0_0.index t (0 : Fin 2) * 512 + 1 * r.val = 512 * t.val + r.val; omega
  | ⟨1, _⟩ => exact win0_0.rect_emb_val_of_index_zero t 1 z (ix2 r k)

private theorem whole0 (c : Dev nD) (t : Fin cfg0.N) :
    iblk0 V c 1 t = WA0 V c ∧ iblk0 V c 2 t = bA0 V c ∧ iblk0 V c 3 t = mkA0 V c ∧ iblk0 V c 4 t = HA0 V c
      ∧ iblk0 V c 5 t = shA0 V c := by
  have z := (idx0 t).2
  refine ⟨?_, ?_, ?_, ?_, ?_⟩ <;> refine funext fun y => congrArg (V c _) (funext fun a => Fin.ext ?_)
  · exact win0_1.rect_emb_val_of_index_zero t a (z a).1 y
  · exact win0_2.rect_emb_val_of_index_zero t a (z a).2.1 y
  · exact win0_3.rect_emb_val_of_index_zero t a (z a).2.2.1 y
  · exact win0_4.rect_emb_val_of_index_zero t a (z a).2.2.2.1 y
  · exact win0_5.rect_emb_val_of_index_zero t a (z a).2.2.2.2.1 y

/-- A row of the layer depends on the same row of the batch alone. -/
theorem flushed0_6_eq (c : Dev nD) (t : Fin cfg0.N) :
    (dat0 V c).flushed 6 t = ((cfg0.win 6).blk t).view.read (Elt Ideal) (G0_6 V c) := by
  obtain ⟨hW, hb, hm, -⟩ := whole0 V c t
  show (cfg0.win 6).cut (grid0.coords t) ((dat0 V c).after 6 t) = _
  rw [after0_6, hW, hb, hm]
  funext y
  show k0_pay7 (F := Ideal) (iblk0 V c 0 t) (WA0 V c) (bA0 V c) (mkA0 V c) y = G0_6 V c (((cfg0.win 6).blk t).view.emb y)
  obtain ⟨r, j, rfl⟩ : ∃ r j, y = ix2 r j := ⟨y 0, y 1, eq_ix2 y⟩
  rw [emb0_6, k0_pay7_apply, tile0]
  rfl

/-- Row `i` is row `i % 512` of tile `i / 512`. -/
theorem cover0_6 (i : S8192x256.Idx) :
    ∃ t : Fin cfg0.N, (cfg0.win 6).flush t = true ∧ i ∈ ((cfg0.win 6).blk t).view.set := by
  have h : (i 0).val < 8192 := (i 0).isLt
  let t : Fin cfg0.N := ⟨(i 0).val / 512, by rw [N0_eq]; omega⟩
  have e : ((cfg0.win 6).blk t).view.emb (ix2 ⟨(i 0).val % 512, Nat.mod_lt _ (by norm_num)⟩ (i 1)) = i := by
    rw [emb0_6]; funext a
    match a with
    | ⟨0, _⟩ => exact Fin.ext (Nat.div_add_mod _ 512)
    | ⟨1, _⟩ => rfl
  exact ⟨t, flush0_6 t, e ▸ View.emb_mem_set _ _⟩

theorem arr0_6 (c : Dev nD) : (dat0 V c).arrAt 6 cfg0.N = G0_6 V c :=
  (dat0 V c).arrAt_eq_of_cover 6 (G0_6 V c) (fun t _ => flushed0_6_eq V c t) (cover0_6)

/-- From zero, adding one tile's sum at a time gives the sum over the batch. -/
private theorem score0 (c : Dev nD) :
    (fun j : Fin 256 => (1 - 1 * Ideal.div (accS0 V c 16 (ix2 0 0)) Cert.Spec.n1) * (∑ k : Fin 1024, A2 (HA0 V c) j k)
      + 1 * accD0 V c 16 (ix2 0 j)) = scoreKer (A2 (xA0 V c)) (A2 (HA0 V c)) Cert.Spec.n1 :=
  Cert.Spec.scoreKer_of_acc _ _ _ _ (fun j => accD0 V c 16 (ix2 0 j))
    (Cert.Spec.acc_theta _ _ (fun n => accS0 V c n (ix2 0 0)) k0_pay4_apply fun t => by
      refine (congrFun (accS0_succ V c (t.cast N0_eq.symm)) _).trans ?_
      rw [k0_pay1_apply, (whole0 V c _).2.2.2.1, tile0]; rfl)
    (Cert.Spec.acc_sdot _ _ (fun n j => accD0 V c n (ix2 0 j)) k0_pay5_apply fun t j => by
      refine (congrFun (accD0_succ V c (t.cast N0_eq.symm)) _).trans ?_
      rw [k0_pay2_apply, (whole0 V c _).2.2.2.1, tile0]; rfl)

theorem eq_ix2_row0 {n : ℕ} (y : (⟨2, ![1, n]⟩ : Shape).Idx) : y = ix2 0 (y 1) :=
  funext fun a => match a with
    | ⟨0, _⟩ => Fin.ext (Nat.lt_one_iff.mp (y 0).isLt)
    | ⟨1, _⟩ => rfl

/-- The score assembled from the two totals is the score that sums first. -/
theorem flushed0_7_eq (c : Dev nD) (hsh : ∀ j : Fin 256, shA0 V c (ix2 0 j) = ∑ k : Fin 1024, A2 (HA0 V c) j k)
    (t : Fin cfg0.N) :
    (dat0 V c).flushed 7 t = ((cfg0.win 7).blk t).view.read (Elt Ideal) (G0_7 V c) := by
  show (cfg0.win 7).cut (grid0.coords t) ((dat0 V c).after 7 t) = _
  rw [after0_7, k0_pay6_eq, (whole0 V c t).2.2.2.2]
  funext y
  show k0_pay3 (F := Ideal) (shA0 V c) (accS0 V c 16) (accD0 V c 16) y = G0_7 V c (((cfg0.win 7).blk t).view.emb y)
  obtain ⟨j, rfl⟩ : ∃ j, y = ix2 0 j := ⟨y 1, eq_ix2_row0 y⟩
  rw [emb0_7, k0_pay3_apply]
  refine congrArg (thresh · Cert.Spec.eps Cert.Spec.half j) ?_
  rw [← score0 V c]
  funext j'; rw [hsh j']

theorem cover0_7 (i : S1x256.Idx) :
    ∃ t : Fin cfg0.N, (cfg0.win 7).flush t = true ∧ i ∈ ((cfg0.win 7).blk t).view.set :=
  ⟨⟨15, by rw [N0_eq]; omega⟩, (flush0_7 _).mpr rfl, emb0_7 _ i ▸ View.emb_mem_set _ i⟩

theorem arr0_7 (c : Dev nD) (hsh : ∀ j : Fin 256, shA0 V c (ix2 0 j) = ∑ k : Fin 1024, A2 (HA0 V c) j k) :
    (dat0 V c).arrAt 7 cfg0.N = G0_7 V c :=
  (dat0 V c).arrAt_eq_of_cover 7 (G0_7 V c) (fun t _ => flushed0_7_eq V c hsh t) (cover0_7)

end Region0

end Cert.KernelIdeal.HandValue

end
-- ==== Proof.KI.Glue1.lean ====
import proofs.«131279_j13907104104967_1_alg».proof.Proof.KI.Reg1
import proofs.«131279_j13907104104967_1_alg».proof.Proof.KI.Payloads
import proofs.«131279_j13907104104967_1_alg».proof.Proof.TileSums
import Idealize.ShloMosaic.Lib.Pipeline.Value
import Idealize.ShloMosaic.Lib.ValueIdx

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.Spec (A2 layer relu unitRows uproj thresh scoreKer tile)
open scoped BigOperators

section Region1
variable (V : (c : Dev nD) → (b : Ref sig .tc) → Buf (Elt Ideal) ((c : Thread nD τ).loc b))

abbrev xA1 (c : Dev nD) : S8192x256.Idx → EReal := V c (Pipeline.arrRef spec1 0)
abbrev WA1 (c : Dev nD) : S128x256.Idx → EReal := V c (Pipeline.arrRef spec1 1)
abbrev bA1 (c : Dev nD) : S1x128.Idx → EReal := V c (Pipeline.arrRef spec1 2)
abbrev mkA1 (c : Dev nD) : S1x128.Idx → EReal := V c (Pipeline.arrRef spec1 3)
abbrev HA1 (c : Dev nD) : S128x256.Idx → EReal := V c (Pipeline.arrRef spec1 4)
abbrev shA1 (c : Dev nD) : S1x128.Idx → EReal := V c (Pipeline.arrRef spec1 5)

abbrev G1_6 (c : Dev nD) : S8192x128.Idx → EReal := fun i =>
  layer (A2 (xA1 V c)) (A2 (WA1 V c)) (row (bA1 V c)) (row (mkA1 V c)) (i 0) (i 1)
abbrev G1_7 (c : Dev nD) : S1x128.Idx → EReal := fun i =>
  thresh (scoreKer (A2 (xA1 V c)) (A2 (HA1 V c)) Cert.Spec.n2) Cert.Spec.eps Cert.Spec.half (i 1)

theorem N1_eq : cfg1.N = 16 := N_1

private theorem idx1 : ∀ t : Fin cfg1.N,
    (win1_0.index t (0 : Fin 2) = t.val ∧ win1_0.index t (1 : Fin 2) = 0
      ∧ win1_6.index t (0 : Fin 2) = t.val ∧ win1_6.index t (1 : Fin 2) = 0)
    ∧ ∀ a : Fin 2, win1_1.index t a = 0 ∧ win1_2.index t a = 0 ∧ win1_3.index t a = 0 ∧ win1_4.index t a = 0
      ∧ win1_5.index t a = 0 ∧ win1_7.index t a = 0 :=
  (by decide +kernel : ∀ t : Fin grid1.N, _)

theorem emb1_6 (t : Fin cfg1.N) (y : S512x128.Idx) :
    (((cfg1.win 6).blk t).view.emb y : S8192x128.Idx)
      = ix2 ⟨512 * t.val + (y 0).val, Cert.Spec.glue_lt16 (t.cast N1_eq) (y 0)⟩ (y 1) := by
  obtain ⟨⟨-, -, e, z⟩, -⟩ := idx1 t
  funext a; apply Fin.ext
  match a with
  | ⟨0, _⟩ => show win1_6.index t (0 : Fin 2) * 512 + 1 * (y 0).val = 512 * t.val + (y 0).val; omega
  | ⟨1, _⟩ => exact win1_6.rect_emb_val_of_index_zero t 1 z y

theorem emb1_7 (t : Fin cfg1.N) (y : S1x128.Idx) : (((cfg1.win 7).blk t).view.emb y : S1x128.Idx) = y :=
  funext fun a => Fin.ext (win1_7.rect_emb_val_of_index_zero t a ((idx1 t).2 a).2.2.2.2.2 y)

private theorem tile1 (c : Dev nD) (t : Fin cfg1.N) : A2 (iblk1 V c 0 t) = tile (A2 (xA1 V c)) (t.cast N1_eq) := by
  obtain ⟨⟨e, z, -⟩, -⟩ := idx1 t
  funext r k; refine congrArg (V c _) (funext fun a => Fin.ext ?_)
  match a with
  | ⟨0, _⟩ => show win1_0.index t (0 : Fin 2) * 512 + 1 * r.val = 512 * t.val + r.val; omega
  | ⟨1, _⟩ => exact win1_0.rect_emb_val_of_index_zero t 1 z (ix2 r k)

private theorem whole1 (c : Dev nD) (t : Fin cfg1.N) :
    iblk1 V c 1 t = WA1 V c ∧ iblk1 V c 2 t = bA1 V c ∧ iblk1 V c 3 t = mkA1 V c ∧ iblk1 V c 4 t = HA1 V c
      ∧ iblk1 V c 5 t = shA1 V c := by
  have z := (idx1 t).2
  refine ⟨?_, ?_, ?_, ?_, ?_⟩ <;> refine funext fun y => congrArg (V c _) (funext fun a => Fin.ext ?_)
  · exact win1_1.rect_emb_val_of_index_zero t a (z a).1 y
  · exact win1_2.rect_emb_val_of_index_zero t a (z a).2.1 y
  · exact win1_3.rect_emb_val_of_index_zero t a (z a).2.2.1 y
  · exact win1_4.rect_emb_val_of_index_zero t a (z a).2.2.2.1 y
  · exact win1_5.rect_emb_val_of_index_zero t a (z a).2.2.2.2.1 y

/-- A row of the layer depends on the same row of the batch alone. -/
theorem flushed1_6_eq (c : Dev nD) (t : Fin cfg1.N) :
    (dat1 V c).flushed 6 t = ((cfg1.win 6).blk t).view.read (Elt Ideal) (G1_6 V c) := by
  obtain ⟨hW, hb, hm, -⟩ := whole1 V c t
  show (cfg1.win 6).cut (grid1.coords t) ((dat1 V c).after 6 t) = _
  rw [after1_6, hW, hb, hm]
  funext y
  show k1_pay8 (F := Ideal) (iblk1 V c 0 t) (WA1 V c) (bA1 V c) (mkA1 V c) y = G1_6 V c (((cfg1.win 6).blk t).view.emb y)
  obtain ⟨r, j, rfl⟩ : ∃ r j, y = ix2 r j := ⟨y 0, y 1, eq_ix2 y⟩
  rw [emb1_6, k1_pay8_apply, tile1]
  rfl

/-- Row `i` is row `i % 512` of tile `i / 512`. -/
theorem cover1_6 (i : S8192x128.Idx) :
    ∃ t : Fin cfg1.N, (cfg1.win 6).flush t = true ∧ i ∈ ((cfg1.win 6).blk t).view.set := by
  have h : (i 0).val < 8192 := (i 0).isLt
  let t : Fin cfg1.N := ⟨(i 0).val / 512, by rw [N1_eq]; omega⟩
  have e : ((cfg1.win 6).blk t).view.emb (ix2 ⟨(i 0).val % 512, Nat.mod_lt _ (by norm_num)⟩ (i 1)) = i := by
    rw [emb1_6]; funext a
    match a with
    | ⟨0, _⟩ => exact Fin.ext (Nat.div_add_mod _ 512)
    | ⟨1, _⟩ => rfl
  exact ⟨t, flush1_6 t, e ▸ View.emb_mem_set _ _⟩

theorem arr1_6 (c : Dev nD) : (dat1 V c).arrAt 6 cfg1.N = G1_6 V c :=
  (dat1 V c).arrAt_eq_of_cover 6 (G1_6 V c) (fun t _ => flushed1_6_eq V c t) (cover1_6)

/-- From zero, adding one tile's sum at a time gives the sum over the batch. -/
private theorem score1 (c : Dev nD) :
    (fun j : Fin 128 => (1 - 1 * Ideal.div (accS1 V c 16 (ix2 0 0)) Cert.Spec.n2) * (∑ k : Fin 256, A2 (HA1 V c) j k)
      + 1 * accD1 V c 16 (ix2 0 j)) = scoreKer (A2 (xA1 V c)) (A2 (HA1 V c)) Cert.Spec.n2 :=
  Cert.Spec.scoreKer_of_acc _ _ _ _ (fun j => accD1 V c 16 (ix2 0 j))
    (Cert.Spec.acc_theta _ _ (fun n => accS1 V c n (ix2 0 0)) k1_pay4_apply fun t => by
      refine (congrFun (accS1_succ V c (t.cast N1_eq.symm)) _).trans ?_
      rw [k1_pay1_apply, (whole1 V c _).2.2.2.1, tile1]; rfl)
    (Cert.Spec.acc_sdot _ _ (fun n j => accD1 V c n (ix2 0 j)) k1_pay5_apply fun t j => by
      refine (congrFun (accD1_succ V c (t.cast N1_eq.symm)) _).trans ?_
      rw [k1_pay2_apply, (whole1 V c _).2.2.2.1, tile1]; rfl)

theorem eq_ix2_row1 {n : ℕ} (y : (⟨2, ![1, n]⟩ : Shape).Idx) : y = ix2 0 (y 1) :=
  funext fun a => match a with
    | ⟨0, _⟩ => Fin.ext (Nat.lt_one_iff.mp (y 0).isLt)
    | ⟨1, _⟩ => rfl

/-- The score assembled from the two totals is the score that sums first. -/
theorem flushed1_7_eq (c : Dev nD) (hsh : ∀ j : Fin 128, shA1 V c (ix2 0 j) = ∑ k : Fin 256, A2 (HA1 V c) j k)
    (t : Fin cfg1.N) :
    (dat1 V c).flushed 7 t = ((cfg1.win 7).blk t).view.read (Elt Ideal) (G1_7 V c) := by
  show (cfg1.win 7).cut (grid1.coords t) ((dat1 V c).after 7 t) = _
  rw [after1_7, k1_pay7_eq, (whole1 V c t).2.2.2.2]
  funext y
  show k1_pay3 (F := Ideal) (shA1 V c) (accS1 V c 16) (accD1 V c 16) y = G1_7 V c (((cfg1.win 7).blk t).view.emb y)
  obtain ⟨j, rfl⟩ : ∃ j, y = ix2 0 j := ⟨y 1, eq_ix2_row1 y⟩
  rw [emb1_7, k1_pay3_apply]
  refine congrArg (thresh · Cert.Spec.eps Cert.Spec.half j) ?_
  rw [← score1 V c]
  funext j'; rw [hsh j']

theorem cover1_7 (i : S1x128.Idx) :
    ∃ t : Fin cfg1.N, (cfg1.win 7).flush t = true ∧ i ∈ ((cfg1.win 7).blk t).view.set :=
  ⟨⟨15, by rw [N1_eq]; omega⟩, (flush1_7 _).mpr rfl, emb1_7 _ i ▸ View.emb_mem_set _ i⟩

theorem arr1_7 (c : Dev nD) (hsh : ∀ j : Fin 128, shA1 V c (ix2 0 j) = ∑ k : Fin 256, A2 (HA1 V c) j k) :
    (dat1 V c).arrAt 7 cfg1.N = G1_7 V c :=
  (dat1 V c).arrAt_eq_of_cover 7 (G1_7 V c) (fun t _ => flushed1_7_eq V c hsh t) (cover1_7)

end Region1

end Cert.KernelIdeal.HandValue

end
-- ==== Proof.KI.Glue2.lean ====
import proofs.«131279_j13907104104967_1_alg».proof.Proof.KI.Reg2
import proofs.«131279_j13907104104967_1_alg».proof.Proof.KI.Payloads
import proofs.«131279_j13907104104967_1_alg».proof.Proof.TileSums
import Idealize.ShloMosaic.Lib.Pipeline.Value
import Idealize.ShloMosaic.Lib.ValueIdx

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.Spec (A2 layer relu unitRows uproj thresh scoreKer tile)
open scoped BigOperators

section Region2
variable (V : (c : Dev nD) → (b : Ref sig .tc) → Buf (Elt Ideal) ((c : Thread nD τ).loc b))

abbrev xA2 (c : Dev nD) : S8192x128.Idx → EReal := V c (Pipeline.arrRef spec2 0)
abbrev WA2 (c : Dev nD) : S64x128.Idx → EReal := V c (Pipeline.arrRef spec2 1)
abbrev bA2 (c : Dev nD) : S1x64.Idx → EReal := V c (Pipeline.arrRef spec2 2)
abbrev mkA2 (c : Dev nD) : S1x64.Idx → EReal := V c (Pipeline.arrRef spec2 3)
abbrev HA2 (c : Dev nD) : S64x128.Idx → EReal := V c (Pipeline.arrRef spec2 4)
abbrev shA2 (c : Dev nD) : S1x64.Idx → EReal := V c (Pipeline.arrRef spec2 5)

abbrev G2_6 (c : Dev nD) : S8192x64.Idx → EReal := fun i =>
  layer (A2 (xA2 V c)) (A2 (WA2 V c)) (row (bA2 V c)) (row (mkA2 V c)) (i 0) (i 1)
abbrev G2_7 (c : Dev nD) : S1x64.Idx → EReal := fun i =>
  thresh (scoreKer (A2 (xA2 V c)) (A2 (HA2 V c)) Cert.Spec.n3) Cert.Spec.eps Cert.Spec.half (i 1)

theorem N2_eq : cfg2.N = 16 := N_2

private theorem idx2 : ∀ t : Fin cfg2.N,
    (win2_0.index t (0 : Fin 2) = t.val ∧ win2_0.index t (1 : Fin 2) = 0
      ∧ win2_6.index t (0 : Fin 2) = t.val ∧ win2_6.index t (1 : Fin 2) = 0)
    ∧ ∀ a : Fin 2, win2_1.index t a = 0 ∧ win2_2.index t a = 0 ∧ win2_3.index t a = 0 ∧ win2_4.index t a = 0
      ∧ win2_5.index t a = 0 ∧ win2_7.index t a = 0 :=
  (by decide +kernel : ∀ t : Fin grid2.N, _)

theorem emb2_6 (t : Fin cfg2.N) (y : S512x64.Idx) :
    (((cfg2.win 6).blk t).view.emb y : S8192x64.Idx)
      = ix2 ⟨512 * t.val + (y 0).val, Cert.Spec.glue_lt16 (t.cast N2_eq) (y 0)⟩ (y 1) := by
  obtain ⟨⟨-, -, e, z⟩, -⟩ := idx2 t
  funext a; apply Fin.ext
  match a with
  | ⟨0, _⟩ => show win2_6.index t (0 : Fin 2) * 512 + 1 * (y 0).val = 512 * t.val + (y 0).val; omega
  | ⟨1, _⟩ => exact win2_6.rect_emb_val_of_index_zero t 1 z y

theorem emb2_7 (t : Fin cfg2.N) (y : S1x64.Idx) : (((cfg2.win 7).blk t).view.emb y : S1x64.Idx) = y :=
  funext fun a => Fin.ext (win2_7.rect_emb_val_of_index_zero t a ((idx2 t).2 a).2.2.2.2.2 y)

private theorem tile2 (c : Dev nD) (t : Fin cfg2.N) : A2 (iblk2 V c 0 t) = tile (A2 (xA2 V c)) (t.cast N2_eq) := by
  obtain ⟨⟨e, z, -⟩, -⟩ := idx2 t
  funext r k; refine congrArg (V c _) (funext fun a => Fin.ext ?_)
  match a with
  | ⟨0, _⟩ => show win2_0.index t (0 : Fin 2) * 512 + 1 * r.val = 512 * t.val + r.val; omega
  | ⟨1, _⟩ => exact win2_0.rect_emb_val_of_index_zero t 1 z (ix2 r k)

private theorem whole2 (c : Dev nD) (t : Fin cfg2.N) :
    iblk2 V c 1 t = WA2 V c ∧ iblk2 V c 2 t = bA2 V c ∧ iblk2 V c 3 t = mkA2 V c ∧ iblk2 V c 4 t = HA2 V c
      ∧ iblk2 V c 5 t = shA2 V c := by
  have z := (idx2 t).2
  refine ⟨?_, ?_, ?_, ?_, ?_⟩ <;> refine funext fun y => congrArg (V c _) (funext fun a => Fin.ext ?_)
  · exact win2_1.rect_emb_val_of_index_zero t a (z a).1 y
  · exact win2_2.rect_emb_val_of_index_zero t a (z a).2.1 y
  · exact win2_3.rect_emb_val_of_index_zero t a (z a).2.2.1 y
  · exact win2_4.rect_emb_val_of_index_zero t a (z a).2.2.2.1 y
  · exact win2_5.rect_emb_val_of_index_zero t a (z a).2.2.2.2.1 y

/-- A row of the layer depends on the same row of the batch alone. -/
theorem flushed2_6_eq (c : Dev nD) (t : Fin cfg2.N) :
    (dat2 V c).flushed 6 t = ((cfg2.win 6).blk t).view.read (Elt Ideal) (G2_6 V c) := by
  obtain ⟨hW, hb, hm, -⟩ := whole2 V c t
  show (cfg2.win 6).cut (grid2.coords t) ((dat2 V c).after 6 t) = _
  rw [after2_6, hW, hb, hm]
  funext y
  show k2_pay8 (F := Ideal) (iblk2 V c 0 t) (WA2 V c) (bA2 V c) (mkA2 V c) y = G2_6 V c (((cfg2.win 6).blk t).view.emb y)
  obtain ⟨r, j, rfl⟩ : ∃ r j, y = ix2 r j := ⟨y 0, y 1, eq_ix2 y⟩
  rw [emb2_6, k2_pay8_apply, tile2]
  rfl

/-- Row `i` is row `i % 512` of tile `i / 512`. -/
theorem cover2_6 (i : S8192x64.Idx) :
    ∃ t : Fin cfg2.N, (cfg2.win 6).flush t = true ∧ i ∈ ((cfg2.win 6).blk t).view.set := by
  have h : (i 0).val < 8192 := (i 0).isLt
  let t : Fin cfg2.N := ⟨(i 0).val / 512, by rw [N2_eq]; omega⟩
  have e : ((cfg2.win 6).blk t).view.emb (ix2 ⟨(i 0).val % 512, Nat.mod_lt _ (by norm_num)⟩ (i 1)) = i := by
    rw [emb2_6]; funext a
    match a with
    | ⟨0, _⟩ => exact Fin.ext (Nat.div_add_mod _ 512)
    | ⟨1, _⟩ => rfl
  exact ⟨t, flush2_6 t, e ▸ View.emb_mem_set _ _⟩

theorem arr2_6 (c : Dev nD) : (dat2 V c).arrAt 6 cfg2.N = G2_6 V c :=
  (dat2 V c).arrAt_eq_of_cover 6 (G2_6 V c) (fun t _ => flushed2_6_eq V c t) (cover2_6)

/-- From zero, adding one tile's sum at a time gives the sum over the batch. -/
private theorem score2 (c : Dev nD) :
    (fun j : Fin 64 => (1 - 1 * Ideal.div (accS2 V c 16 (ix2 0 0)) Cert.Spec.n3) * (∑ k : Fin 128, A2 (HA2 V c) j k)
      + 1 * accD2 V c 16 (ix2 0 j)) = scoreKer (A2 (xA2 V c)) (A2 (HA2 V c)) Cert.Spec.n3 :=
  Cert.Spec.scoreKer_of_acc _ _ _ _ (fun j => accD2 V c 16 (ix2 0 j))
    (Cert.Spec.acc_theta _ _ (fun n => accS2 V c n (ix2 0 0)) k2_pay4_apply fun t => by
      refine (congrFun (accS2_succ V c (t.cast N2_eq.symm)) _).trans ?_
      rw [k2_pay1_apply, (whole2 V c _).2.2.2.1, tile2]; rfl)
    (Cert.Spec.acc_sdot _ _ (fun n j => accD2 V c n (ix2 0 j)) k2_pay5_apply fun t j => by
      refine (congrFun (accD2_succ V c (t.cast N2_eq.symm)) _).trans ?_
      rw [k2_pay2_apply, (whole2 V c _).2.2.2.1, tile2]; rfl)

theorem eq_ix2_row2 {n : ℕ} (y : (⟨2, ![1, n]⟩ : Shape).Idx) : y = ix2 0 (y 1) :=
  funext fun a => match a with
    | ⟨0, _⟩ => Fin.ext (Nat.lt_one_iff.mp (y 0).isLt)
    | ⟨1, _⟩ => rfl

/-- The score assembled from the two totals is the score that sums first. -/
theorem flushed2_7_eq (c : Dev nD) (hsh : ∀ j : Fin 64, shA2 V c (ix2 0 j) = ∑ k : Fin 128, A2 (HA2 V c) j k)
    (t : Fin cfg2.N) :
    (dat2 V c).flushed 7 t = ((cfg2.win 7).blk t).view.read (Elt Ideal) (G2_7 V c) := by
  show (cfg2.win 7).cut (grid2.coords t) ((dat2 V c).after 7 t) = _
  rw [after2_7, k2_pay7_eq, (whole2 V c t).2.2.2.2]
  funext y
  show k2_pay3 (F := Ideal) (shA2 V c) (accS2 V c 16) (accD2 V c 16) y = G2_7 V c (((cfg2.win 7).blk t).view.emb y)
  obtain ⟨j, rfl⟩ : ∃ j, y = ix2 0 j := ⟨y 1, eq_ix2_row2 y⟩
  rw [emb2_7, k2_pay3_apply]
  refine congrArg (thresh · Cert.Spec.eps Cert.Spec.half j) ?_
  rw [← score2 V c]
  funext j'; rw [hsh j']

theorem cover2_7 (i : S1x64.Idx) :
    ∃ t : Fin cfg2.N, (cfg2.win 7).flush t = true ∧ i ∈ ((cfg2.win 7).blk t).view.set :=
  ⟨⟨15, by rw [N2_eq]; omega⟩, (flush2_7 _).mpr rfl, emb2_7 _ i ▸ View.emb_mem_set _ i⟩

theorem arr2_7 (c : Dev nD) (hsh : ∀ j : Fin 64, shA2 V c (ix2 0 j) = ∑ k : Fin 128, A2 (HA2 V c) j k) :
    (dat2 V c).arrAt 7 cfg2.N = G2_7 V c :=
  (dat2 V c).arrAt_eq_of_cover 7 (G2_7 V c) (fun t _ => flushed2_7_eq V c hsh t) (cover2_7)

end Region2

end Cert.KernelIdeal.HandValue

end
-- ==== Proof.KI.Glue3.lean ====
import proofs.«131279_j13907104104967_1_alg».proof.Proof.KI.Reg3
import proofs.«131279_j13907104104967_1_alg».proof.Proof.KI.Payloads
import proofs.«131279_j13907104104967_1_alg».proof.Proof.Spec
import Idealize.ShloMosaic.Lib.Pipeline.Value
import Idealize.ShloMosaic.Lib.ValueIdx

noncomputable section

namespace Cert.KernelIdeal.HandValue

open Cert.KernelIdeal.Gen Cert.KernelIdeal.Hand
open Idealize.ShloMosaic Idealize.ShloMosaic.TcCoe Idealize.ShloMosaic.ValueIdx
open Idealize.ShloMosaic.Pipeline (Dat)
open Cert.Spec (A2 relu)
open scoped BigOperators

section Glue3
variable (V : (c : Dev nD) → (b : Ref sig .tc) → Buf (Elt Ideal) ((c : Thread nD τ).loc b))

abbrev xA3 (c : Dev nD) : S8192x64.Idx → EReal := V c (Pipeline.arrRef spec3 0)
abbrev WA3 (c : Dev nD) : S1000x64.Idx → EReal := V c (Pipeline.arrRef spec3 1)
abbrev bA3 (c : Dev nD) : S1x1000.Idx → EReal := V c (Pipeline.arrRef spec3 2)

private abbrev G3_3 (c : Dev nD) : S8192x1000.Idx → EReal := fun i =>
  relu (A2 (xA3 V c)) (A2 (WA3 V c)) (row (bA3 V c)) (i 0) (i 1)

private theorem idx3 : ∀ t : Fin cfg3.N,
    (win3_0.index t (0 : Fin 2) = t.val ∧ win3_0.index t (1 : Fin 2) = 0
      ∧ win3_3.index t (0 : Fin 2) = t.val ∧ win3_3.index t (1 : Fin 2) = 0)
    ∧ ∀ a : Fin 2, win3_1.index t a = 0 ∧ win3_2.index t a = 0 :=
  (by decide +kernel : ∀ t : Fin grid3.N, _)

private theorem glue3 (t : Fin cfg3.N) (r : Fin 1024) : 1024 * t.val + r.val < 8192 := by
  have := lt_of_lt_of_eq t.isLt N_3; have := r.isLt; omega

private theorem tile3 (c : Dev nD) (t : Fin cfg3.N) (r : Fin 1024) :
    A2 (iblk3 V c 0 t) r = A2 (xA3 V c) ⟨1024 * t.val + r.val, glue3 t r⟩ := by
  obtain ⟨⟨e, z, -⟩, -⟩ := idx3 t
  funext k; refine congrArg (V c _) (funext fun a => Fin.ext ?_)
  match a with
  | ⟨0, _⟩ => show win3_0.index t (0 : Fin 2) * 1024 + 1 * r.val = 1024 * t.val + r.val; omega
  | ⟨1, _⟩ => exact win3_0.rect_emb_val_of_index_zero t 1 z (ix2 r k)

private theorem emb3_3 (t : Fin cfg3.N) (y : S1024x1000.Idx) :
    (((cfg3.win 3).blk t).view.emb y : S8192x1000.Idx) = ix2 ⟨1024 * t.val + (y 0).val, glue3 t (y 0)⟩ (y 1) := by
  obtain ⟨⟨-, -, e, z⟩, -⟩ := idx3 t
  funext a; apply Fin.ext
  match a with
  | ⟨0, _⟩ => show win3_3.index t (0 : Fin 2) * 1024 + 1 * (y 0).val = 1024 * t.val + (y 0).val; omega
  | ⟨1, _⟩ => exact win3_3.rect_emb_val_of_index_zero t 1 z y

private theorem whole3 (c : Dev nD) (t : Fin cfg3.N) : iblk3 V c 1 t = WA3 V c ∧ iblk3 V c 2 t = bA3 V c := by
  have z := (idx3 t).2
  refine ⟨?_, ?_⟩ <;> refine funext fun y => congrArg (V c _) (funext fun a => Fin.ext ?_)
  · exact win3_1.rect_emb_val_of_index_zero t a (z a).1 y
  · exact win3_2.rect_emb_val_of_index_zero t a (z a).2 y

/-- A row of the rectified affine map depends on the same row of its first argument alone. -/
private theorem relu_row {B B' X Y : ℕ} (a : Fin B → Fin X → EReal) (a' : Fin B' → Fin X → EReal) (W : Fin Y → Fin X → EReal)
    (b : Fin Y → EReal) (i : Fin B) (i' : Fin B') (h : a i = a' i') (j : Fin Y) : relu a W b i j = relu a' W b i' j := by
  unfold relu; rw [h]

theorem flushed3_3 (c : Dev nD) (t : Fin cfg3.N) :
    (dat3 (F := Ideal) V c).flushed 3 t = ((cfg3.win 3).blk t).view.read (Elt Ideal) (G3_3 V c) := by
  show (cfg3.win 3).cut (grid3.coords t) ((dat3 (F := Ideal) V c).after 3 t) = _
  rw [after3_3, (whole3 V c t).1, (whole3 V c t).2]
  funext y
  show k3_pay1 (iblk3 V c 0 t) (WA3 V c) (bA3 V c) y = G3_3 V c (((cfg3.win 3).blk t).view.emb y)
  obtain ⟨r, j, rfl⟩ : ∃ r j, y = ix2 r j := ⟨y 0, y 1, eq_ix2 y⟩
  rw [emb3_3, k3_pay1_apply]
  exact relu_row _ _ _ _ _ _ (tile3 V c t r) j

/-- Row `i` is row `i % 1024` of tile `i / 1024`. -/
private theorem cover3_3 (i : S8192x1000.Idx) :
    ∃ t : Fin cfg3.N, (cfg3.win 3).flush t = true ∧ i ∈ ((cfg3.win 3).blk t).view.set := by
  have h : (i 0).val < 8192 := (i 0).isLt
  let t : Fin cfg3.N := ⟨(i 0).val / 1024, (by omega : (i 0).val / 1024 < 8).trans_eq N_3.symm⟩
  have e : ((cfg3.win 3).blk t).view.emb (ix2 ⟨(i 0).val % 1024, Nat.mod_lt _ (by norm_num)⟩ (i 1)) = i := by
    rw [emb3_3]; funext a
    match a with
    | ⟨0, _⟩ => exact Fin.ext (Nat.div_add_mod _ 1024)
    | ⟨1, _⟩ => rfl
  exact ⟨t, flush3_3 t, e ▸ View.emb_mem_set _ _⟩

theorem arr3_3 (c : Dev nD) :
    (dat3 (F := Ideal) V c).arrAt 3 cfg3.N
      = fun i => relu (A2 (xA3 V c)) (A2 (WA3 V c)) (row (bA3 V c)) (i 0) (i 1) :=
  (dat3 (F := Ideal) V c).arrAt_eq_of_cover 3 (G3_3 V c) (fun t _ => flushed3_3 V c t) cover3_3

end Glue3

end Cert.KernelIdeal.HandValue

end
-- ==== Proof.KI.GlueAll.lean ====
import proofs.«131279_j13907104104967_1_alg».proof.Proof.KI.Run
import proofs.«131279_j13907104104967_1_alg».proof.Proof.KI.Payloads
import proofs.«131279_j13907104104967_1_alg».proof.Proof.KI.Glue0
import proofs.«131279_j13907104104967_1_alg».proof.Proof.KI.Glue1
import proofs.«131279_j13907104104967_1_alg».proof.Proof.KI.Glue2
import proofs.«131279_j13907104104967_1_alg».proof.Proof.KI.Glue3
import proofs.«131279_j13907104104967_1_alg».proof.Proof.Gen.KernelIdeal.Regions
import proofs.«131279_j13907104104967_1_alg».proof.Proof.Spec
import Idealize.ShloMosaic.Lib.Pipeline.Value
import Idealize.ShloMosaic.Lib.Pipeline.FrameSuffix
import Idealize.ShloMosaic.Lib.ValueIdx
import Idealize.ShloMosaic.Lib.IdealHost
import Idealize.ShloMosaic.Lib.StableHlo.Run
import Idealize.ShloMosaic.PureOps.Ideal.Laws

noncomputable section

namespace Cert.KernelIdeal.HandValue

open Cert.KernelIdeal.Gen Cert.KernelIdeal.Hand
open Idealize.ShloMosaic Idealize.ShloMosaic.TcCoe Idealize.ShloMosaic.ValueIdx
open Cert.Spec (A1 A2 layer relu thresh scoreKer)
open scoped BigOperators

-- Entry i of a vector and entry (0, i) of the same vector laid out as a row sit at the same row-major position.
theorem pos_row {n : ℕ} (i : (⟨1, ![n]⟩ : Shape).Idx) :
    ((⟨1, ![n]⟩ : Shape).rowMajor i).val = ((⟨2, ![1, n]⟩ : Shape).rowMajor (ix2 0 (i 0))).val := by
  rw [Shape.rowMajor_val_one, Shape.rowMajor_val_two]
  show (i 0).val = 0 * n + (i 0).val
  omega

-- The sum of a matrix over its second axis, started from zero, is the row sum.
theorem rowsum_apply {n a : ℕ} (x : (⟨2, ![n, a]⟩ : Shape).Idx → EReal) (h' : (⟨2, ![n, a]⟩ : Shape).ReducesTo [1] ⟨1, ![n]⟩)
    (h : (⟨2, ![n, a]⟩ : Shape).Reduces [1] ⟨1, ![n]⟩) (j : Fin n) :
    Host.reduceAdd x (constant (F := Ideal) S_ .f32 0x00000000#32) h' h_S_ (ix1 j) = ∑ k : Fin a, A2 x j k := by
  rw [hostReduceAdd_apply, Ideal.hostReduceAdd_single h' h]
  show Ideal.ofBits .f32 0x00000000#32 + _ = _
  rw [Ideal.ofBits_zero_f32, zero_add]
  refine Finset.sum_congr rfl fun k _ => congrArg x (funext fun d => ?_)
  match d with
  | ⟨0, _⟩ => rfl
  | ⟨1, _⟩ => rfl

section Host
variable (V0 : Valuation τ sig (Elt Ideal))

theorem host0_v1 (j : Fin 256) :
    (StableHlo.after (hostOps0 (F := Ideal)) V0 (Proc.devRef .tc main_v1) : S1x256.Idx → EReal) (ix2 0 j)
      = ∑ k : Fin 1024, A2 (StableHlo.after (hostOps0 (F := Ideal)) V0 (Proc.devRef .tc main_arg12)) j k := by
  after_results; exact (shapeCast_apply _ _ _ _ (pos_row (ix1 j))).trans (rowsum_apply _ _ (by decide) j)

theorem host0_v2 : row (StableHlo.after (hostOps0 (F := Ideal)) V0 (Proc.devRef .tc main_v2) : S1x256.Idx → EReal) = A1 (V0 (Proc.devRef .tc main_arg5)) := by
  funext j; after_results; exact shapeCast_apply _ _ _ _ (pos_row (ix1 j))

theorem host0_v3 : row (StableHlo.after (hostOps0 (F := Ideal)) V0 (Proc.devRef .tc main_v3) : S1x256.Idx → EReal) = A1 (V0 (Proc.devRef .tc main_arg1)) := by
  funext j; after_results; exact shapeCast_apply _ _ _ _ (pos_row (ix1 j))

theorem host1_v5 (i : S256.Idx) :
    (StableHlo.after (hostOps1 (F := Ideal)) V0 (Proc.devRef .tc main_v5) : S256.Idx → EReal) i = (V0 (Proc.devRef .tc main_v4_1) : S1x256.Idx → EReal) (ix2 0 (i 0)) := by
  after_results; exact shapeCast_apply _ _ _ _ (pos_row i).symm

theorem host1_v7 (j : Fin 128) :
    (StableHlo.after (hostOps1 (F := Ideal)) V0 (Proc.devRef .tc main_v7) : S1x128.Idx → EReal) (ix2 0 j)
      = ∑ k : Fin 256, A2 (StableHlo.after (hostOps1 (F := Ideal)) V0 (Proc.devRef .tc main_arg13)) j k := by
  after_results; exact (shapeCast_apply _ _ _ _ (pos_row (ix1 j))).trans (rowsum_apply _ _ (by decide) j)

theorem host1_v8 : row (StableHlo.after (hostOps1 (F := Ideal)) V0 (Proc.devRef .tc main_v8) : S1x128.Idx → EReal) = A1 (V0 (Proc.devRef .tc main_arg7)) := by
  funext j; after_results; exact shapeCast_apply _ _ _ _ (pos_row (ix1 j))

theorem host1_v9 : row (StableHlo.after (hostOps1 (F := Ideal)) V0 (Proc.devRef .tc main_v9) : S1x128.Idx → EReal) = A1 (V0 (Proc.devRef .tc main_arg2)) := by
  funext j; after_results; exact shapeCast_apply _ _ _ _ (pos_row (ix1 j))

theorem host2_v11 (i : S128.Idx) :
    (StableHlo.after (hostOps2 (F := Ideal)) V0 (Proc.devRef .tc main_v11) : S128.Idx → EReal) i = (V0 (Proc.devRef .tc main_v10_1) : S1x128.Idx → EReal) (ix2 0 (i 0)) := by
  after_results; exact shapeCast_apply _ _ _ _ (pos_row i).symm

theorem host2_v13 (j : Fin 64) :
    (StableHlo.after (hostOps2 (F := Ideal)) V0 (Proc.devRef .tc main_v13) : S1x64.Idx → EReal) (ix2 0 j)
      = ∑ k : Fin 128, A2 (StableHlo.after (hostOps2 (F := Ideal)) V0 (Proc.devRef .tc main_arg14)) j k := by
  after_results; exact (shapeCast_apply _ _ _ _ (pos_row (ix1 j))).trans (rowsum_apply _ _ (by decide) j)

theorem host2_v14 : row (StableHlo.after (hostOps2 (F := Ideal)) V0 (Proc.devRef .tc main_v14) : S1x64.Idx → EReal) = A1 (V0 (Proc.devRef .tc main_arg9)) := by
  funext j; after_results; exact shapeCast_apply _ _ _ _ (pos_row (ix1 j))

theorem host2_v15 : row (StableHlo.after (hostOps2 (F := Ideal)) V0 (Proc.devRef .tc main_v15) : S1x64.Idx → EReal) = A1 (V0 (Proc.devRef .tc main_arg3)) := by
  funext j; after_results; exact shapeCast_apply _ _ _ _ (pos_row (ix1 j))

theorem host3_v17 (i : S64.Idx) :
    (StableHlo.after (hostOps3 (F := Ideal)) V0 (Proc.devRef .tc main_v17) : S64.Idx → EReal) i = (V0 (Proc.devRef .tc main_v16_1) : S1x64.Idx → EReal) (ix2 0 (i 0)) := by
  after_results; exact shapeCast_apply _ _ _ _ (pos_row i).symm

theorem host3_v18 : row (StableHlo.after (hostOps3 (F := Ideal)) V0 (Proc.devRef .tc main_v18) : S1x1000.Idx → EReal) = A1 (V0 (Proc.devRef .tc main_arg11)) := by
  funext j; after_results; exact shapeCast_apply _ _ _ _ (pos_row (ix1 j))

end Host

theorem layerArr_congr {B X Y : ℕ} {a a' : Fin B → Fin X → EReal} {W W' : Fin Y → Fin X → EReal} {b b' mk mk' : Fin Y → EReal}
    (ha : a = a') (hW : W = W') (hb : b = b') (hmk : mk = mk') :
    (fun i : (⟨2, ![B, Y]⟩ : Shape).Idx => layer a W b mk (i 0) (i 1)) = fun i => layer a' W' b' mk' (i 0) (i 1) := by
  subst ha hW hb hmk; rfl

theorem maskRow_congr {B X Y : ℕ} {a a' : Fin B → Fin X → EReal} {H H' : Fin Y → Fin X → EReal} (n ε h : EReal)
    (ha : a = a') (hH : H = H') :
    (fun i : (⟨2, ![1, Y]⟩ : Shape).Idx => thresh (scoreKer a H n) ε h (i 1)) = fun i => thresh (scoreKer a' H' n) ε h (i 1) := by
  subst ha hH; rfl

theorem reluArr_congr {B X Y : ℕ} {a a' : Fin B → Fin X → EReal} {W W' : Fin Y → Fin X → EReal} {b b' : Fin Y → EReal}
    (ha : a = a') (hW : W = W') (hb : b = b') :
    (fun i : (⟨2, ![B, Y]⟩ : Shape).Idx => relu a W b (i 0) (i 1)) = fun i => relu a' W' b' (i 0) (i 1) := by
  subst ha hW hb; rfl

section Chain
variable (m : (ℓ : Loc nD τ sig) → Buf (Elt Ideal) ℓ) (ρ : Dev nD → PrngReg)

def inputsOf (c : Dev nD) : Cert.Spec.Inputs :=
  ⟨A2 (m ((c : Thread nD τ).loc main_arg0)), A1 (m ((c : Thread nD τ).loc main_arg1)), A1 (m ((c : Thread nD τ).loc main_arg2)),
    A1 (m ((c : Thread nD τ).loc main_arg3)), A2 (m ((c : Thread nD τ).loc main_arg4)), A1 (m ((c : Thread nD τ).loc main_arg5)),
    A2 (m ((c : Thread nD τ).loc main_arg6)), A1 (m ((c : Thread nD τ).loc main_arg7)), A2 (m ((c : Thread nD τ).loc main_arg8)),
    A1 (m ((c : Thread nD τ).loc main_arg9)), A2 (m ((c : Thread nD τ).loc main_arg10)), A1 (m ((c : Thread nD τ).loc main_arg11)),
    A2 (m ((c : Thread nD τ).loc main_arg12)), A2 (m ((c : Thread nD τ).loc main_arg13)), A2 (m ((c : Thread nD τ).loc main_arg14))⟩

theorem keep1 (c : Dev nD) (r : Ref sig .tc) (h : r ∉ hostOps0_W := by decide) :
    W1 (F := Ideal) m ρ c (Proc.devRef .tc r) = m ((c : Thread nD τ).loc r) :=
  (StableHlo.after_of_writes_sub hostOps0 _ hostOps0_writes h).trans rfl
theorem keep3 (c : Dev nD) (r : Ref sig .tc) (h : r ∉ hostOps1_W := by decide) :
    W3 (F := Ideal) m ρ c (Proc.devRef .tc r) = W2 m ρ c (Proc.devRef .tc r) :=
  StableHlo.after_of_writes_sub hostOps1 _ hostOps1_writes h
theorem keep5 (c : Dev nD) (r : Ref sig .tc) (h : r ∉ hostOps2_W := by decide) :
    W5 (F := Ideal) m ρ c (Proc.devRef .tc r) = W4 m ρ c (Proc.devRef .tc r) :=
  StableHlo.after_of_writes_sub hostOps2 _ hostOps2_writes h
theorem keep7 (c : Dev nD) (r : Ref sig .tc) (h : r ∉ hostOps3_W := by decide) :
    W7 (F := Ideal) m ρ c (Proc.devRef .tc r) = W6 m ρ c (Proc.devRef .tc r) :=
  StableHlo.after_of_writes_sub hostOps3 _ hostOps3_writes h

section
variable (c : Dev nD) (r : Ref sig .tc) (h0 : r ∉ hostOps0_W := by decide) (h1 : ∀ w, Pipeline.arrRef spec0 w ≠ r := by decide)
  (h2 : r ∉ hostOps1_W := by decide) (h3 : ∀ w, Pipeline.arrRef spec1 w ≠ r := by decide) (h4 : r ∉ hostOps2_W := by decide)
  (h5 : ∀ w, Pipeline.arrRef spec2 w ≠ r := by decide) (h6 : r ∉ hostOps3_W := by decide)

include h0 h1
-- Each step changes only the buffers it writes, so a buffer no earlier step writes still holds its launch contents.
theorem arg_at2 : W2 (F := Ideal) m ρ c (Proc.devRef .tc r) = m ((c : Thread nD τ).loc r) :=
  (W2_of_ne m ρ c r h1).trans (keep1 m ρ c r h0)
include h2
theorem arg_at3 : W3 (F := Ideal) m ρ c (Proc.devRef .tc r) = m ((c : Thread nD τ).loc r) :=
  (keep3 m ρ c r h2).trans (arg_at2 m ρ c r h0 h1)
include h3
theorem arg_at4 : W4 (F := Ideal) m ρ c (Proc.devRef .tc r) = m ((c : Thread nD τ).loc r) :=
  (W4_of_ne m ρ c r h3).trans (arg_at3 m ρ c r h0 h1 h2)
include h4
theorem arg_at5 : W5 (F := Ideal) m ρ c (Proc.devRef .tc r) = m ((c : Thread nD τ).loc r) :=
  (keep5 m ρ c r h4).trans (arg_at4 m ρ c r h0 h1 h2 h3)
include h5
theorem arg_at6 : W6 (F := Ideal) m ρ c (Proc.devRef .tc r) = m ((c : Thread nD τ).loc r) :=
  (W6_of_ne m ρ c r h5).trans (arg_at5 m ρ c r h0 h1 h2 h3 h4)
include h6
theorem arg_at7 : W7 (F := Ideal) m ρ c (Proc.devRef .tc r) = m ((c : Thread nD τ).loc r) :=
  (keep7 m ρ c r h6).trans (arg_at6 m ρ c r h0 h1 h2 h3 h4 h5)
end

theorem entry0_x (c : Dev nD) : A2 (xA0 (Hand.V1 (F := Ideal) m ρ) c) = (inputsOf m c).x :=
  congrArg A2 (keep1 m ρ c main_arg0)

theorem W2_v4_0 (c : Dev nD) :
    (W2 (F := Ideal) m ρ c (Proc.devRef .tc main_v4_0) : S8192x256.Idx → EReal) = fun i => (inputsOf m c).x1 (i 0) (i 1) :=
  ((W2_arr m ρ c 6).trans (arr0_6 (Hand.V1 m ρ) c)).trans
    (layerArr_congr (entry0_x m ρ c) (congrArg A2 (keep1 m ρ c main_arg4))
      (host0_v2 (W0 m ρ c))
      (host0_v3 (W0 m ρ c)))

theorem W2_v4_1 (c : Dev nD) :
    (W2 (F := Ideal) m ρ c (Proc.devRef .tc main_v4_1) : S1x256.Idx → EReal) = fun i => (inputsOf m c).hm0K (i 1) :=
  ((W2_arr m ρ c 7).trans (arr0_7 (Hand.V1 m ρ) c (host0_v1 (W0 m ρ c)))).trans
    (maskRow_congr Cert.Spec.n1 Cert.Spec.eps Cert.Spec.half (entry0_x m ρ c) (congrArg A2 (keep1 m ρ c main_arg12)))

theorem W3_v5 (c : Dev nD) :
    (W3 (F := Ideal) m ρ c (Proc.devRef .tc main_v5) : S256.Idx → EReal) = fun j => (inputsOf m c).hm0K (j 0) :=
  funext fun i => (host1_v5 (W2 m ρ c) i).trans (congrFun (W2_v4_1 m ρ c) _)

theorem entry1_x (c : Dev nD) : A2 (xA1 (Hand.V3 (F := Ideal) m ρ) c) = (inputsOf m c).x1 :=
  congrArg A2 ((keep3 m ρ c main_v4_0).trans (W2_v4_0 m ρ c))

theorem W4_v10_0 (c : Dev nD) :
    (W4 (F := Ideal) m ρ c (Proc.devRef .tc main_v10_0) : S8192x128.Idx → EReal) = fun i => (inputsOf m c).x2 (i 0) (i 1) :=
  ((W4_arr m ρ c 6).trans (arr1_6 (Hand.V3 m ρ) c)).trans
    (layerArr_congr (entry1_x m ρ c) (congrArg A2 (arg_at3 m ρ c main_arg6))
      ((host1_v8 (W2 m ρ c)).trans (congrArg A1 (arg_at2 m ρ c main_arg7)))
      ((host1_v9 (W2 m ρ c)).trans (congrArg A1 (arg_at2 m ρ c main_arg2))))

theorem W4_v10_1 (c : Dev nD) :
    (W4 (F := Ideal) m ρ c (Proc.devRef .tc main_v10_1) : S1x128.Idx → EReal) = fun i => (inputsOf m c).hm1K (i 1) :=
  ((W4_arr m ρ c 7).trans (arr1_7 (Hand.V3 m ρ) c (host1_v7 (W2 m ρ c)))).trans
    (maskRow_congr Cert.Spec.n2 Cert.Spec.eps Cert.Spec.half (entry1_x m ρ c) (congrArg A2 (arg_at3 m ρ c main_arg13)))

theorem W5_v11 (c : Dev nD) :
    (W5 (F := Ideal) m ρ c (Proc.devRef .tc main_v11) : S128.Idx → EReal) = fun j => (inputsOf m c).hm1K (j 0) :=
  funext fun i => (host2_v11 (W4 m ρ c) i).trans (congrFun (W4_v10_1 m ρ c) _)

theorem entry2_x (c : Dev nD) : A2 (xA2 (Hand.V5 (F := Ideal) m ρ) c) = (inputsOf m c).x2 :=
  congrArg A2 ((keep5 m ρ c main_v10_0).trans (W4_v10_0 m ρ c))

theorem W6_v16_0 (c : Dev nD) :
    (W6 (F := Ideal) m ρ c (Proc.devRef .tc main_v16_0) : S8192x64.Idx → EReal) = fun i => (inputsOf m c).x3 (i 0) (i 1) :=
  ((W6_arr m ρ c 6).trans (arr2_6 (Hand.V5 m ρ) c)).trans
    (layerArr_congr (entry2_x m ρ c) (congrArg A2 (arg_at5 m ρ c main_arg8))
      ((host2_v14 (W4 m ρ c)).trans (congrArg A1 (arg_at4 m ρ c main_arg9)))
      ((host2_v15 (W4 m ρ c)).trans (congrArg A1 (arg_at4 m ρ c main_arg3))))

theorem W6_v16_1 (c : Dev nD) :
    (W6 (F := Ideal) m ρ c (Proc.devRef .tc main_v16_1) : S1x64.Idx → EReal) = fun i => (inputsOf m c).hm2K (i 1) :=
  ((W6_arr m ρ c 7).trans (arr2_7 (Hand.V5 m ρ) c (host2_v13 (W4 m ρ c)))).trans
    (maskRow_congr Cert.Spec.n3 Cert.Spec.eps Cert.Spec.half (entry2_x m ρ c) (congrArg A2 (arg_at5 m ρ c main_arg14)))

theorem W7_v17 (c : Dev nD) :
    (W7 (F := Ideal) m ρ c (Proc.devRef .tc main_v17) : S64.Idx → EReal) = fun j => (inputsOf m c).hm2K (j 0) :=
  funext fun i => (host3_v17 (W6 m ρ c) i).trans (congrFun (W6_v16_1 m ρ c) _)

theorem W8_v19 (c : Dev nD) :
    W8 (F := Ideal) m ρ c (Proc.devRef .tc main_v19) = fun j => (inputsOf m c).out (j 0) (j 1) :=
  ((W8_arr m ρ c 3).trans (arr3_3 (Hand.V7 m ρ) c)).trans
    (reluArr_congr (congrArg A2 ((keep7 m ρ c main_v16_0).trans (W6_v16_0 m ρ c)))
      (congrArg A2 (arg_at7 m ρ c main_arg10))
      ((host3_v18 (W6 m ρ c)).trans (congrArg A1 (arg_at6 m ρ c main_arg11))))

theorem W8_v5 (c : Dev nD) :
    W8 (F := Ideal) m ρ c (Proc.devRef .tc main_v5) = fun j => (inputsOf m c).hm0K (j 0) :=
  (W8_of_ne m ρ c main_v5 (by decide)).trans <| (keep7 m ρ c main_v5).trans <|
    (W6_of_ne m ρ c main_v5 (by decide)).trans <| (keep5 m ρ c main_v5).trans <|
    (W4_of_ne m ρ c main_v5 (by decide)).trans (W3_v5 m ρ c)
theorem W8_v11 (c : Dev nD) :
    W8 (F := Ideal) m ρ c (Proc.devRef .tc main_v11) = fun j => (inputsOf m c).hm1K (j 0) :=
  (W8_of_ne m ρ c main_v11 (by decide)).trans <| (keep7 m ρ c main_v11).trans <|
    (W6_of_ne m ρ c main_v11 (by decide)).trans (W5_v11 m ρ c)
theorem W8_v17 (c : Dev nD) :
    W8 (F := Ideal) m ρ c (Proc.devRef .tc main_v17) = fun j => (inputsOf m c).hm2K (j 0) :=
  (W8_of_ne m ρ c main_v17 (by decide)).trans (W7_v17 m ρ c)

end Chain

end Cert.KernelIdeal.HandValue

end
-- ==== Proof.RefValue.lean ====
import proofs.«131279_j13907104104967_1_alg».proof.Proof.Spec
import proofs.«131279_j13907104104967_1_alg».proof.Proof.Gen.ReferenceIdeal.Read
import Idealize.ShloMosaic.PureOps.Ideal.Laws
import Idealize.ShloMosaic.Lib.IdealHost
import Idealize.ShloMosaic.Lib.ValueIdxRank1

noncomputable section

namespace Cert.RefValue

open Cert.ReferenceIdeal Cert.ReferenceIdeal.Gen Cert.ReferenceIdeal.Read Cert.Spec
open Idealize.ShloMosaic Idealize.ShloMosaic.ValueIdx
open scoped BigOperators

theorem rd2 {n0 n1 : ℕ} (x : (⟨2, ![n0, n1]⟩ : Shape).Idx → EReal) (i : (⟨2, ![n0, n1]⟩ : Shape).Idx) :
    x i = A2 x (i 0) (i 1) := congrArg x (eq_ix2 i)

theorem rd1 {n : ℕ} (x : (⟨1, ![n]⟩ : Shape).Idx → EReal) (i : (⟨1, ![n]⟩ : Shape).Idx) :
    x i = A1 x (i 0) := congrArg x (eq_ix1 i)

theorem top_f32 : Ideal.ofBits .f32 0x7F800000#32 = ⊤ := by simp [Ideal.ofBits, Ideal.ieee]
theorem bot_f32 : Ideal.ofBits .f32 0xFF800000#32 = ⊥ := by simp [Ideal.ofBits, Ideal.ieee]

-- A vector folded whole by a commutative operation is the fold over its coordinates.
theorem reduce_all {n : ℕ} (op : EReal → EReal → EReal) [Std.Commutative op] [Std.Associative op]
    (x : (⟨1, ![n]⟩ : Shape).Idx → EReal) (init : (⟨0, ![]⟩ : Shape).Idx → EReal)
    (h' : (⟨1, ![n]⟩ : Shape).ReducesTo [0] (⟨0, ![]⟩ : Shape)) (hu : 0 < (⟨0, ![]⟩ : Shape).numel)
    (j : (⟨0, ![]⟩ : Shape).Idx) :
    Host.reduce op x init h' hu j = Finset.univ.fold op (init (Shape.Idx.first hu)) fun k => x (ix1 k) := by
  rw [Host.reduce_eq_fold _ x init h' hu j, Finset.filter_true_of_mem fun _ _ => funext fun b => b.elim0,
    ← Finset.map_univ_equiv idxEquiv1.symm, Finset.fold_map]
  rfl

theorem select_lt (x y a b : EReal) :
    Scalar.select (FloatOps.cmpf (F := Ideal) (φ := .f32) .olt x y) a b = if x < y then a else b := by
  show (if Ideal.cmp .olt x y = 1 then a else b) = _
  unfold Ideal.cmp
  by_cases h : x < y <;> simp [h]

variable (a0 : (⟨S8192x1024, .f32⟩ : BufTy).Contents (Elt Ideal)) (a1 : (⟨S256, .f32⟩ : BufTy).Contents (Elt Ideal))
  (a2 : (⟨S128, .f32⟩ : BufTy).Contents (Elt Ideal)) (a3 : (⟨S64, .f32⟩ : BufTy).Contents (Elt Ideal))
  (a4 : (⟨S256x1024, .f32⟩ : BufTy).Contents (Elt Ideal)) (a5 : (⟨S256, .f32⟩ : BufTy).Contents (Elt Ideal))
  (a6 : (⟨S128x256, .f32⟩ : BufTy).Contents (Elt Ideal)) (a7 : (⟨S128, .f32⟩ : BufTy).Contents (Elt Ideal))
  (a8 : (⟨S64x128, .f32⟩ : BufTy).Contents (Elt Ideal)) (a9 : (⟨S64, .f32⟩ : BufTy).Contents (Elt Ideal))
  (a10 : (⟨S1000x64, .f32⟩ : BufTy).Contents (Elt Ideal)) (a11 : (⟨S1000, .f32⟩ : BufTy).Contents (Elt Ideal))
  (a12 : (⟨S256x1024, .f32⟩ : BufTy).Contents (Elt Ideal)) (a13 : (⟨S128x256, .f32⟩ : BufTy).Contents (Elt Ideal))
  (a14 : (⟨S64x128, .f32⟩ : BufTy).Contents (Elt Ideal))

set_option quotPrecheck false
local notation "𝐈" => (⟨A2 a0, A1 a1, A1 a2, A1 a3, A2 a4, A1 a5, A2 a6, A1 a7, A2 a8, A1 a9, A2 a10, A1 a11, A2 a12, A2 a13, A2 a14⟩ : Cert.Spec.Inputs)
local notation "X₁" => val_main_v40 (F := Ideal) a0 a1 a4 a5
local notation "X₂" => val_main_v81 (F := Ideal) a0 a1 a2 a4 a5 a6 a7
local notation "X₃" => val_main_v122 (F := Ideal) a0 a1 a2 a3 a4 a5 a6 a7 a8 a9

-- Each stage below is read at an index from its operands; an index is its coordinates.
theorem lyf1 : A2 X₁ = layer (A2 a0) (A2 a4) (A1 a5) (A1 a1) := by
  funext p q
  show X₁ (ix2 p q) = _
  simp only [val_main_v32_apply, val_main_v33_apply, val_main_v34_apply, val_main_v35_apply, val_main_v36_apply, val_main_v37_apply, val_main_v38_apply, val_main_v39_apply, val_main_v40_apply, val_main_call3_v0_apply, val_main_call3_cst_apply,
    rd2 a0, rd2 a4, rd1 a5, rd1 a1, Ideal.ofBits_def, Ideal.ofBits_zero_f32]
  rfl

theorem hm0_eq : val_main_v31 (F := Ideal) a0 a12 = fun j => Inputs.hm0R 𝐈 (j 0) := by
  funext j
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v20_apply, val_main_v21_apply, val_main_v24_apply, val_main_v25_apply, val_main_v26_apply, val_main_v27_apply, val_main_v28_apply, val_main_v29_apply, val_main_v30_apply, val_main_v31_apply, val_main_v19, val_main_v22, val_main_v23, val_main_call0_v0_apply, val_main_call0_cst_apply, val_main_call0_v1_apply, val_main_call0_v2_apply, val_main_call1_v0_apply, val_main_call1_cst_apply, val_main_call1_v1_apply, val_main_call1_v2_apply, val_main_call2_v0_apply, val_main_call2_v1_apply, val_main_cst_apply, val_main_cst_0_apply, val_main_cst_1_apply, val_main_cst_2_apply, val_main_cst_3_apply, val_main_cst_4_apply, val_main_cst_5_apply, val_main_cst_6_apply, val_main_cst_7_apply, val_main_cst_8_apply, val_main_cst_9_apply,
    rd2 a0, rd2 a12, sum_idx2, reduce_all, select_lt, Ideal.ofBits_def, Ideal.ofBits_zero_f32, zero_add, Ideal.ofBits_one_f32, top_f32, bot_f32]
  rfl

theorem lyf2 : A2 X₂ = layer (A2 X₁) (A2 a6) (A1 a7) (A1 a2) := by
  funext p q
  show X₂ (ix2 p q) = _
  simp only [val_main_v73_apply, val_main_v74_apply, val_main_v75_apply, val_main_v76_apply, val_main_v77_apply, val_main_v78_apply, val_main_v79_apply, val_main_v80_apply, val_main_v81_apply, val_main_call7_v0_apply, val_main_call7_cst_apply,
    rd2 X₁, rd2 a6, rd1 a7, rd1 a2, Ideal.ofBits_def, Ideal.ofBits_zero_f32]
  rfl

theorem hm1_eq : val_main_v72 (F := Ideal) a0 a1 a4 a5 a13 = fun j => Inputs.hm1R 𝐈 (j 0) := by
  funext j
  simp only [val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v61_apply, val_main_v62_apply, val_main_v65_apply, val_main_v66_apply, val_main_v67_apply, val_main_v68_apply, val_main_v69_apply, val_main_v70_apply, val_main_v71_apply, val_main_v72_apply, val_main_v60, val_main_v63, val_main_v64, val_main_call4_v0_apply, val_main_call4_cst_apply, val_main_call4_v1_apply, val_main_call4_v2_apply, val_main_call5_v0_apply, val_main_call5_cst_apply, val_main_call5_v1_apply, val_main_call5_v2_apply, val_main_call6_v0_apply, val_main_call6_v1_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply,
    rd2 X₁, rd2 a13, sum_idx2, reduce_all, select_lt, Ideal.ofBits_def, Ideal.ofBits_zero_f32, zero_add, Ideal.ofBits_one_f32, top_f32, bot_f32, lyf1]
  rfl

theorem lyf3 : A2 X₃ = layer (A2 X₂) (A2 a8) (A1 a9) (A1 a3) := by
  funext p q
  show X₃ (ix2 p q) = _
  simp only [val_main_v114_apply, val_main_v115_apply, val_main_v116_apply, val_main_v117_apply, val_main_v118_apply, val_main_v119_apply, val_main_v120_apply, val_main_v121_apply, val_main_v122_apply, val_main_call11_v0_apply, val_main_call11_cst_apply,
    rd2 X₂, rd2 a8, rd1 a9, rd1 a3, Ideal.ofBits_def, Ideal.ofBits_zero_f32]
  rfl

theorem hm2_eq : val_main_v113 (F := Ideal) a0 a1 a2 a4 a5 a6 a7 a14 = fun j => Inputs.hm2R 𝐈 (j 0) := by
  funext j
  simp only [val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_v100_apply, val_main_v102_apply, val_main_v103_apply, val_main_v106_apply, val_main_v107_apply, val_main_v108_apply, val_main_v109_apply, val_main_v110_apply, val_main_v111_apply, val_main_v112_apply, val_main_v113_apply, val_main_v101, val_main_v104, val_main_v105, val_main_call8_v0_apply, val_main_call8_cst_apply, val_main_call8_v1_apply, val_main_call8_v2_apply, val_main_call9_v0_apply, val_main_call9_cst_apply, val_main_call9_v1_apply, val_main_call9_v2_apply, val_main_call10_v0_apply, val_main_call10_v1_apply, val_main_cst_21_apply, val_main_cst_22_apply, val_main_cst_23_apply, val_main_cst_24_apply, val_main_cst_25_apply, val_main_cst_26_apply, val_main_cst_27_apply, val_main_cst_28_apply, val_main_cst_29_apply, val_main_cst_30_apply, val_main_cst_31_apply,
    rd2 X₂, rd2 a14, sum_idx2, reduce_all, select_lt, Ideal.ofBits_def, Ideal.ofBits_zero_f32, zero_add, Ideal.ofBits_one_f32, top_f32, bot_f32, lyf2, lyf1]
  rfl

theorem out_eq :
    val_main_v128 (F := Ideal) a0 a1 a2 a3 a4 a5 a6 a7 a8 a9 a10 a11 = fun j => Inputs.out 𝐈 (j 0) (j 1) := by
  funext j
  simp only [val_main_v123_apply, val_main_v124_apply, val_main_v125_apply, val_main_v126_apply, val_main_v127_apply, val_main_v128_apply, val_main_call12_v0_apply, val_main_call12_cst_apply,
    rd2 X₃, rd2 a10, rd1 a11, Ideal.ofBits_def, Ideal.ofBits_zero_f32, lyf3, lyf2, lyf1]
  rfl

end Cert.RefValue

end
-- ==== Proof.PreFacts.lean ====
import proofs.«131279_j13907104104967_1_alg».proof.Proof.Spec
import proofs.«131279_j13907104104967_1_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws
import Idealize.ShloMosaic.Lib.IdealHost
import Idealize.ShloMosaic.Lib.StackMember
import Idealize.ShloMosaic.Lib.ValueLayout
import Idealize.ShloMosaic.Lib.StableHlo.Predicate

noncomputable section

namespace Cert.PreFacts

open Idealize.ShloMosaic Idealize.ShloMosaic.ValueIdx
open Cert.Pre_finite_inputs Cert.Spec
open scoped BigOperators

instance : Subsingleton S_.Idx := ⟨fun a b => funext fun d => d.elim0⟩

-- Among the extended reals only the real numbers have `|x| < +∞`.
theorem real_of_abs_lt_inf (x : EReal) (h : Ideal.cmp .olt (max x (-x)) (Ideal.ofBits .f32 0x7F800000#32) = 1#1) :
    ∃ r : ℝ, x = (r : EReal) := by
  rw [show Ideal.ofBits .f32 0x7F800000#32 = ⊤ by simp [Ideal.ofBits, Ideal.ieee]] at h
  induction x using EReal.rec with
  | bot => simp [Ideal.cmp] at h
  | top => simp [Ideal.cmp] at h
  | coe r => exact ⟨r, rfl⟩

-- A comparison with a constant that holds of the whole array holds at each index.
theorem all_cmp {s : Shape} {axes : List (Fin s.rank)} {p : CmpFPredicate} {c : BitVec 32} {v : FVec Ideal s .f32}
    {hb : S_.BroadcastsInDim s (![] : Fin 0 → Fin s.rank)} {hr : s.ReducesTo axes S_} {hS : 0 < S_.numel}
    (e : Host.reduce IntOp.andi (cmpf p v (broadcastInDim s ![] hb (constant S_ .f32 c))) (constantI S_ 1 1#1) hr hS ix0
      = 1#1) (i : s.Idx) : Ideal.cmp p (v i) (Ideal.ofBits .f32 c) = 1#1 := by
  have hc : broadcastInDim s ![] hb (constant (F := Ideal) S_ .f32 c) i = Ideal.ofBits .f32 c :=
    broadcastInDim_scalar_apply hb _ i
  rw [← hc]
  exact Host.reduce_andi_all _ _ hr hS ix0 e i

theorem keepdims_apply (v : FVec Ideal S8192 .f32)
    (hb : S8192.BroadcastsInDim S8192x1 (![0] : Fin 1 → Fin 2)) (i : Fin 8192) :
    broadcastInDim S8192x1 ![0] hb v (ix2 i 0) = v (ix1 i) :=
  broadcastInDim_apply _ hb v (ix2 i 0) (ix1 i) (fun a => match a with
    | ⟨0, _⟩ => (if_neg (by decide : ¬8192 = 1)).symm)

theorem bcastRow_apply {m : ℕ} (b : FVec Ideal ⟨1, ![m]⟩ .f32)
    (h1 : (⟨1, ![m]⟩ : Shape).BroadcastsInDim ⟨2, ![1, m]⟩ (![1] : Fin 1 → Fin 2))
    (h2 : (⟨2, ![1, m]⟩ : Shape).BroadcastsInDim ⟨2, ![8192, m]⟩ (![0, 1] : Fin 2 → Fin 2)) (i : Fin 8192) (j : Fin m) :
    broadcastInDim ⟨2, ![8192, m]⟩ ![0, 1] h2 (broadcastInDim ⟨2, ![1, m]⟩ ![1] h1 b) (ix2 i j) = b (ix1 j) :=
  (StableHlo.Predicate.bcast_cols h1 h2 b i j).trans (congrArg b (funext fun a => match a with | ⟨0, _⟩ => rfl))

abbrev mm (M K N : ℕ) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

theorem mm_apply {M K N : ℕ} (wf) (l : FVec Ideal ⟨2, ![M, K]⟩ .f32) (r : FVec Ideal ⟨2, ![K, N]⟩ .f32) (i : Fin M) (j : Fin N) :
    Host.dotGeneral (mm M K N wf) none l r (ix2 i j) = ∑ k : Fin K, l (ix2 i k) * r (ix2 k j) :=
  StackMember.dotGeneral_plain_apply none l r i j

theorem rowSumSq_apply {n : ℕ} (y : FVec Ideal ⟨2, ![8192, n]⟩ .f32)
    (hr : (⟨2, ![8192, n]⟩ : Shape).ReducesTo [1] S8192) (hS : 0 < S_.numel) (i : Fin 8192) :
    Host.reduceAdd (mulf y y) (constant S_ .f32 0x00000000#32) hr hS (ix1 i) = ∑ k : Fin n, y (ix2 i k) * y (ix2 i k) := by
  have hR : (⟨2, ![8192, n]⟩ : Shape).Reduces [1] S8192 := hr.imp fun _ h => ⟨Nat.one_pos, h⟩
  show Ideal.hostReduceAdd hr (mulf y y) (Ideal.ofBits .f32 0x00000000#32) (ix1 i) = _
  rw [Ideal.hostReduceAdd_single hr hR, Ideal.ofBits_zero_f32, zero_add]
  refine Finset.sum_congr rfl fun k _ => ?_
  have e : hR.lift (ix1 i) k = ix2 i k := funext fun a => Fin.ext (by
    match a with
    | ⟨0, _⟩ => rfl
    | ⟨1, _⟩ => rfl)
  exact congrArg (fun z => y z * y z) e

theorem hostSqrt_apply {s : Shape} (v : FVec Ideal s .f32) (j : s.Idx) : Host.sqrt v j = Ideal.sqrt (v j) := rfl

theorem norm_apply {n : ℕ} {y : FVec Ideal ⟨2, ![8192, n]⟩ .f32} {hr : (⟨2, ![8192, n]⟩ : Shape).ReducesTo [1] S8192}
    {hS : 0 < S_.numel} {hb : S8192.BroadcastsInDim S8192x1 (![0] : Fin 1 → Fin 2)} (i : Fin 8192) :
    Host.sqrt (broadcastInDim S8192x1 ![0] hb (Host.reduceAdd (mulf y y) (constant S_ .f32 0x00000000#32) hr hS)) (ix2 i 0)
      = rnorm (A2 y) i := by
  rw [hostSqrt_apply, keepdims_apply, rowSumSq_apply y hr hS i]
  rfl

-- A column of row norms tested positive everywhere: every row norm is positive.
theorem rows_pos {n : ℕ} {y : FVec Ideal ⟨2, ![8192, n]⟩ .f32} {N : FVec Ideal S8192x1 .f32}
    {hb : S_.BroadcastsInDim S8192x1 (![] : Fin 0 → Fin 2)} {hr : S8192x1.ReducesTo [0, 1] S_} {hS : 0 < S_.numel}
    (hN : ∀ i, N (ix2 i 0) = rnorm (A2 y) i)
    (e : Host.reduce IntOp.andi (cmpf .ogt N (broadcastInDim S8192x1 ![] hb (constant S_ .f32 0x00000000#32)))
      (constantI S_ 1 1#1) hr hS ix0 = 1#1) (i : Fin 8192) : 0 < rnorm (A2 y) i := by
  have h := all_cmp e (ix2 i 0)
  rw [hN i, Ideal.ofBits_zero_f32] at h
  by_contra hx
  simp [Ideal.cmp, hx] at h

theorem proj_A2 {n m : ℕ} {wf} {y : FVec Ideal ⟨2, ![8192, n]⟩ .f32} {N : FVec Ideal S8192x1 .f32}
    {H : FVec Ideal ⟨2, ![m, n]⟩ .f32} {hb : S8192x1.BroadcastsInDim ⟨2, ![8192, n]⟩ (![0, 1] : Fin 2 → Fin 2)}
    {ht : (⟨2, ![m, n]⟩ : Shape).Transposes [1, 0] ⟨2, ![n, m]⟩} (hN : ∀ i, N (ix2 i 0) = rnorm (A2 y) i) :
    A2 (Host.dotGeneral (mm 8192 n m wf) none (Host.divf y (broadcastInDim ⟨2, ![8192, n]⟩ ![0, 1] hb N))
        (transpose ⟨2, ![n, m]⟩ [1, 0] H ht))
      = proj (A2 y) (A2 H) := by
  funext i j
  unfold A2
  rw [mm_apply]
  unfold proj rowsDot unitRows
  refine Finset.sum_congr rfl fun k _ => ?_
  rw [transpose_ix2_apply, hostDivf_apply, broadcastInDim_apply _ hb N (ix2 i k) (ix2 i 0) (fun a => match a with
    | ⟨0, _⟩ => (if_neg (by decide : ¬8192 = 1)).symm
    | ⟨1, _⟩ => (if_pos rfl).symm), hN i]
  rfl

theorem layer_A2 {n m : ℕ} {wf} {y : FVec Ideal ⟨2, ![8192, n]⟩ .f32} {W : FVec Ideal ⟨2, ![m, n]⟩ .f32}
    {b mask : FVec Ideal ⟨1, ![m]⟩ .f32} {ht : (⟨2, ![m, n]⟩ : Shape).Transposes [1, 0] ⟨2, ![n, m]⟩}
    {h1 : (⟨1, ![m]⟩ : Shape).BroadcastsInDim ⟨2, ![1, m]⟩ (![1] : Fin 1 → Fin 2)}
    {h2 : (⟨2, ![1, m]⟩ : Shape).BroadcastsInDim ⟨2, ![8192, m]⟩ (![0, 1] : Fin 2 → Fin 2)}
    {h0 : S_.BroadcastsInDim ⟨2, ![8192, m]⟩ (![] : Fin 0 → Fin 2)} :
    A2 (mulf (maximumf (addf (Host.dotGeneral (mm 8192 n m wf) none y (transpose ⟨2, ![n, m]⟩ [1, 0] W ht))
            (broadcastInDim ⟨2, ![8192, m]⟩ ![0, 1] h2 (broadcastInDim ⟨2, ![1, m]⟩ ![1] h1 b)))
          (broadcastInDim ⟨2, ![8192, m]⟩ ![] h0 (constant S_ .f32 0x00000000#32)))
        (broadcastInDim ⟨2, ![8192, m]⟩ ![0, 1] h2 (broadcastInDim ⟨2, ![1, m]⟩ ![1] h1 mask)))
      = layer (A2 y) (A2 W) (A1 b) (A1 mask) := by
  funext i j
  unfold A2
  simp only [mulf_apply, maximumf_apply, addf_apply]
  rw [mm_apply, bcastRow_apply, bcastRow_apply, broadcastInDim_scalar_apply, constant_apply, Ideal.ofBits_zero_f32]
  unfold layer relu A1
  congr 3
  refine Finset.sum_congr rfl fun k _ => ?_
  rw [transpose_ix2_apply]

open Cert.Pre_finite_inputs.Facts in
theorem dom_of_pre (a0 : FVec Ideal S8192x1024 .f32) (a1 : FVec Ideal S256 .f32) (a2 : FVec Ideal S128 .f32) (a3 : FVec Ideal S64 .f32)
    (a4 : FVec Ideal S256x1024 .f32) (a5 : FVec Ideal S256 .f32) (a6 : FVec Ideal S128x256 .f32) (a7 : FVec Ideal S128 .f32)
    (a8 : FVec Ideal S64x128 .f32) (a9 : FVec Ideal S64 .f32) (a10 : FVec Ideal S1000x64 .f32) (a11 : FVec Ideal S1000 .f32)
    (a12 : FVec Ideal S256x1024 .f32) (a13 : FVec Ideal S128x256 .f32) (a14 : FVec Ideal S64x128 .f32)
    (h : Cert.Pre_finite_inputs.fn (F := Ideal) a0 a1 a2 a3 a4 a5 a6 a7 a8 a9 a10 a11 a12 a13 a14 = (fun _ => 1#1)) :
    Dom ⟨A2 a0, A1 a1, A1 a2, A1 a3, A2 a4, A1 a5, A2 a6, A1 a7, A2 a8, A1 a9, A2 a10, A1 a11, A2 a12, A2 a13, A2 a14⟩ := by
  have h0 := congrFun h ix0
  dsimp only [fn, fn_part1, fn_part2, fn_part3, fn_part4, fn_part5, fn_part6, fn_part7, fn_part8,
    dot_S8192x1024_S1024x256_S8192x256_1_0_0_1_n_n, dot_S8192x256_S256x128_S8192x128_1_0_0_1_n_n,
    dot_S8192x128_S128x64_S8192x64_1_0_0_1_n_n, andi] at h0
  simp only [IntOp.andi_eq_one] at h0
  obtain ⟨⟨⟨⟨⟨⟨⟨⟨⟨⟨⟨⟨⟨⟨⟨⟨⟨⟨⟨⟨f0, f1⟩, f2⟩, f3⟩, f4⟩, f5⟩, f6⟩, f7⟩, f8⟩, f9⟩, f10⟩, f11⟩, f12⟩, f13⟩, f14⟩, q0⟩, q1⟩, q2⟩, q3⟩,
    q4⟩, q5⟩ := h0
  have na0 := rows_pos norm_apply q0
  have ny0 := rows_pos norm_apply q1
  have na1 := rows_pos norm_apply q2
  have ny1 := rows_pos norm_apply q3
  have na2 := rows_pos norm_apply q4
  have ny2 := rows_pos norm_apply q5
  rw [proj_A2 norm_apply] at ny0 ny1 ny2
  rw [layer_A2] at na2 ny2
  rw [layer_A2] at na1 ny1 na2 ny2
  exact ⟨fun i k => real_of_abs_lt_inf _ (all_cmp f0 (ix2 i k)), fun j => real_of_abs_lt_inf _ (all_cmp f1 (ix1 j)),
    fun j => real_of_abs_lt_inf _ (all_cmp f2 (ix1 j)), fun j => real_of_abs_lt_inf _ (all_cmp f3 (ix1 j)),
    fun i k => real_of_abs_lt_inf _ (all_cmp f4 (ix2 i k)), fun j => real_of_abs_lt_inf _ (all_cmp f5 (ix1 j)),
    fun i k => real_of_abs_lt_inf _ (all_cmp f6 (ix2 i k)), fun j => real_of_abs_lt_inf _ (all_cmp f7 (ix1 j)),
    fun i k => real_of_abs_lt_inf _ (all_cmp f8 (ix2 i k)), fun j => real_of_abs_lt_inf _ (all_cmp f9 (ix1 j)),
    fun i k => real_of_abs_lt_inf _ (all_cmp f10 (ix2 i k)), fun j => real_of_abs_lt_inf _ (all_cmp f11 (ix1 j)),
    fun i k => real_of_abs_lt_inf _ (all_cmp f12 (ix2 i k)), fun i k => real_of_abs_lt_inf _ (all_cmp f13 (ix2 i k)),
    fun i k => real_of_abs_lt_inf _ (all_cmp f14 (ix2 i k)), na0, ny0, na1, ny1, na2, ny2⟩

end Cert.PreFacts

end
-- ==== Proof.Algebra.lean ====
import proofs.«131279_j13907104104967_1_alg».proof.Proof.Spec
import Idealize.ShloMosaic.PureOps.Ideal
import Mathlib.Data.EReal.Inv
import Mathlib.Algebra.BigOperators.Ring.Finset
import Mathlib.Algebra.Order.BigOperators.Group.Finset
import Mathlib.Tactic.Ring
import Mathlib.Tactic.NormNum

noncomputable section

namespace Cert.Spec

open Idealize.ShloMosaic
open scoped BigOperators

theorem n1_eq : n1 = ((2097152 : ℝ) : EReal) := by
  simp [n1, Ideal.ofBits, Ideal.ieee, -EReal.coe_mul]; norm_num

theorem n2_eq : n2 = ((1048576 : ℝ) : EReal) := by
  simp [n2, Ideal.ofBits, Ideal.ieee, -EReal.coe_mul]; norm_num

theorem n3_eq : n3 = ((524288 : ℝ) : EReal) := by
  simp [n3, Ideal.ofBits, Ideal.ieee, -EReal.coe_mul]; norm_num

theorem coe_finsum {ι : Type*} (s : Finset ι) (r : ι → ℝ) :
    (∑ i ∈ s, ((r i : ℝ) : EReal)) = ((∑ i ∈ s, r i : ℝ) : EReal) := by
  classical
  induction s using Finset.induction_on with
  | empty => simp
  | insert a s ha ih => rw [Finset.sum_insert ha, Finset.sum_insert ha, ih, EReal.coe_add]

theorem real_sum {ι : Type*} [Fintype ι] {f : ι → EReal} (hf : ∀ i, ∃ r : ℝ, f i = (r : EReal)) :
    ∃ r : ℝ, (∑ i, f i) = (r : EReal) := by
  choose r hr using hf
  exact ⟨∑ i, r i, by rw [← coe_finsum]; exact Finset.sum_congr rfl fun i _ => hr i⟩

theorem real_mul {x y : EReal} (hx : ∃ r : ℝ, x = (r : EReal)) (hy : ∃ r : ℝ, y = (r : EReal)) :
    ∃ r : ℝ, x * y = (r : EReal) := by
  obtain ⟨p, rfl⟩ := hx; obtain ⟨q, rfl⟩ := hy; exact ⟨p * q, (EReal.coe_mul p q).symm⟩

theorem real_div {x : EReal} (hx : ∃ r : ℝ, x = (r : EReal)) {y : ℝ} (hy : y ≠ 0) :
    ∃ r : ℝ, Ideal.div x (y : EReal) = (r : EReal) := by
  rw [Ideal.div_coe hy]; exact real_mul hx ⟨_, rfl⟩

/-- A positive row norm of real entries is a nonzero real. -/
theorem rnorm_real {B X : ℕ} {a : Fin B → Fin X → EReal} (ha : Fin2 a) {i : Fin B} (hpos : 0 < rnorm a i) :
    ∃ r : ℝ, r ≠ 0 ∧ rnorm a i = (r : EReal) := by
  obtain ⟨s, hs⟩ : ∃ s : ℝ, (∑ k, a i k * a i k) = (s : EReal) := real_sum fun k => real_mul (ha i k) (ha i k)
  have hr : rnorm a i = if s < 0 then ⊥ else ((Real.sqrt s : ℝ) : EReal) := by
    rw [rnorm, hs]; rfl
  by_cases h : s < 0
  · rw [hr, if_pos h] at hpos
    exact absurd hpos (not_lt.mpr bot_le)
  · rw [if_neg h] at hr
    refine ⟨Real.sqrt s, ?_, hr⟩
    rw [hr] at hpos
    exact (EReal.coe_pos.mp hpos).ne'

theorem fin2_unitRows {B X : ℕ} {a : Fin B → Fin X → EReal} (ha : Fin2 a) (hna : ∀ i, 0 < rnorm a i) :
    Fin2 (unitRows a) := fun i k => by
  obtain ⟨r, hr0, hr⟩ := rnorm_real ha (hna i)
  show ∃ q : ℝ, Ideal.div (a i k) (rnorm a i) = (q : EReal)
  rw [hr]; exact real_div (ha i k) hr0

theorem fin2_rowsDot {B X Y : ℕ} {a : Fin B → Fin X → EReal} {H : Fin Y → Fin X → EReal} (ha : Fin2 a) (hH : Fin2 H) :
    Fin2 (rowsDot a H) := fun i j => real_sum fun k => real_mul (ha i k) (hH j k)

theorem fin2_proj {B X Y : ℕ} {a : Fin B → Fin X → EReal} {H : Fin Y → Fin X → EReal} (ha : Fin2 a) (hH : Fin2 H)
    (hna : ∀ i, 0 < rnorm a i) : Fin2 (proj a H) := fin2_rowsDot (fin2_unitRows ha hna) hH

theorem fin2_uproj {B X Y : ℕ} {a : Fin B → Fin X → EReal} {H : Fin Y → Fin X → EReal} (ha : Fin2 a) (hH : Fin2 H)
    (hna : ∀ i, 0 < rnorm a i) (hny : ∀ i, 0 < rnorm (proj a H) i) : Fin2 (uproj a H) :=
  fin2_unitRows (fin2_proj ha hH hna) hny

theorem real_theta {B X Y : ℕ} {a : Fin B → Fin X → EReal} {H : Fin Y → Fin X → EReal} (hyn : Fin2 (uproj a H))
    {n : ℝ} (hn : n ≠ 0) : ∃ t : ℝ, theta a H (n : EReal) = (t : EReal) :=
  real_div (real_sum fun i => real_sum fun j => real_mul (hyn i j) (hyn i j)) hn

/-- Over the reals the two scores agree: distribute, and exchange the two sums. -/
theorem score_real {B X Y : ℕ} (xn : Fin B → Fin X → ℝ) (yn : Fin B → Fin Y → ℝ) (H : Fin Y → Fin X → ℝ) (θ : ℝ)
    (j : Fin Y) :
    (1 - θ) * (∑ k, H j k) + (∑ i, yn i j * (∑ k, xn i k))
      = ∑ k, (H j k + ((∑ i, yn i j * xn i k) - θ * H j k)) := by
  have hx : (∑ k, ∑ i, yn i j * xn i k) = ∑ i, yn i j * (∑ k, xn i k) := by
    rw [Finset.sum_comm]
    exact Finset.sum_congr rfl fun i _ => (Finset.mul_sum _ _ _).symm
  rw [Finset.sum_add_distrib, Finset.sum_sub_distrib, hx, ← Finset.mul_sum]
  ring

theorem score_coe {B X Y : ℕ} (xn : Fin B → Fin X → ℝ) (yn : Fin B → Fin Y → ℝ) (H : Fin Y → Fin X → ℝ) (θ : ℝ)
    (j : Fin Y) :
    (1 - 1 * (θ : EReal)) * (∑ k, (H j k : EReal)) + 1 * (∑ i, (yn i j : EReal) * (∑ k, (xn i k : EReal)))
      = ∑ k, ((H j k : EReal) + 1 * ((∑ i, (yn i j : EReal) * (xn i k : EReal)) - (θ : EReal) * (H j k : EReal))) := by
  simp only [one_mul]
  rw [← EReal.coe_one]
  simp only [coe_finsum, ← EReal.coe_mul, ← EReal.coe_sub, ← EReal.coe_add]
  exact congrArg _ (score_real xn yn H θ j)

/-- Where every entry is real and the row norms are positive, every intermediate is real, so the real identity transfers. -/
theorem scoreKer_eq_scoreRef {B X Y : ℕ} (a : Fin B → Fin X → EReal) (H : Fin Y → Fin X → EReal) {n : ℝ} (hn : 0 < n)
    (ha : Fin2 a) (hH : Fin2 H) (hna : ∀ i, 0 < rnorm a i) (hny : ∀ i, 0 < rnorm (proj a H) i) :
    scoreKer a H (n : EReal) = scoreRef a H (n : EReal) := by
  choose xn hxn using fin2_unitRows ha hna
  choose yn hyn using fin2_uproj ha hH hna hny
  choose Hr hHr using hH
  obtain ⟨θ, hθ⟩ := real_theta (fin2_uproj ha (fun j k => ⟨Hr j k, hHr j k⟩) hna hny) hn.ne'
  funext j
  show (1 - 1 * theta a H (n : EReal)) * (∑ k, H j k) + 1 * (∑ i, uproj a H i j * (∑ k, unitRows a i k))
    = ∑ k, (H j k + 1 * ((∑ i, uproj a H i j * unitRows a i k) - theta a H (n : EReal) * H j k))
  simp only [hθ, hxn, hyn, hHr]
  exact score_coe xn yn Hr θ j

theorem fin2_layer {B X Y : ℕ} {a : Fin B → Fin X → EReal} {W : Fin Y → Fin X → EReal} {b mask : Fin Y → EReal}
    (ha : Fin2 a) (hW : Fin2 W) (hb : Fin1 b) (hm : Fin1 mask) : Fin2 (layer a W b mask) := fun i j => by
  show ∃ r : ℝ, max ((∑ k, a i k * W j k) + b j) 0 * mask j = (r : EReal)
  refine real_mul ?_ (hm j)
  obtain ⟨s, hs⟩ : ∃ s : ℝ, (∑ k, a i k * W j k) = (s : EReal) := real_sum fun k => real_mul (ha i k) (hW j k)
  obtain ⟨c, hc⟩ := hb j
  rcases max_choice ((∑ k, a i k * W j k) + b j) 0 with h | h
  · exact ⟨s + c, by rw [h, hs, hc, EReal.coe_add]⟩
  · exact ⟨0, by rw [h, EReal.coe_zero]⟩

theorem masks_eq (I : Inputs) (h : Dom I) : I.hm0K = I.hm0R ∧ I.hm1K = I.hm1R ∧ I.hm2K = I.hm2R := by
  have hx1 : Fin2 I.x1 := fin2_layer h.x h.W1 h.b1 h.mask0
  have hx2 : Fin2 I.x2 := fin2_layer hx1 h.W2 h.b2 h.mask1
  refine ⟨?_, ?_, ?_⟩
  · show thresh (scoreKer I.x I.H1 n1) eps half = thresh (scoreRef I.x I.H1 n1) eps half
    rw [n1_eq, scoreKer_eq_scoreRef I.x I.H1 (by norm_num) h.x h.H1 h.na0 h.ny0]
  · show thresh (scoreKer I.x1 I.H2 n2) eps half = thresh (scoreRef I.x1 I.H2 n2) eps half
    rw [n2_eq, scoreKer_eq_scoreRef I.x1 I.H2 (by norm_num) hx1 h.H2 h.na1 h.ny1]
  · show thresh (scoreKer I.x2 I.H3 n3) eps half = thresh (scoreRef I.x2 I.H3 n3) eps half
    rw [n3_eq, scoreKer_eq_scoreRef I.x2 I.H3 (by norm_num) hx2 h.H3 h.na2 h.ny2]

end Cert.Spec

end
-- ==== Proof.Claims.lean ====
import proofs.«131279_j13907104104967_1_alg».proof.Defs
import proofs.«131279_j13907104104967_1_alg».proof.Proof.Gen.Kernel
import proofs.«131279_j13907104104967_1_alg».proof.Proof.Gen.KernelIdeal
import proofs.«131279_j13907104104967_1_alg».proof.Proof.Gen.ReferenceIdeal
import proofs.«131279_j13907104104967_1_alg».proof.Proof.Gen.Pre_finite_inputs
import proofs.«131279_j13907104104967_1_alg».proof.Proof.Gen.ReferenceIdeal.Run
import proofs.«131279_j13907104104967_1_alg».proof.Proof.Gen.ReferenceIdeal.Read
import proofs.«131279_j13907104104967_1_alg».proof.Proof.K.Run
import proofs.«131279_j13907104104967_1_alg».proof.Proof.KI.Run
import proofs.«131279_j13907104104967_1_alg».proof.Proof.KI.GlueAll
import proofs.«131279_j13907104104967_1_alg».proof.Proof.RefValue
import proofs.«131279_j13907104104967_1_alg».proof.Proof.PreFacts
import proofs.«131279_j13907104104967_1_alg».proof.Proof.Algebra

noncomputable section

namespace Cert.Proof.Claims

open Idealize.ShloMosaic Idealize.ShloMosaic.TcCoe Idealize.SL.Sem
open Cert.KernelIdeal.Hand Cert.KernelIdeal.HandValue
open Cert.Spec (A1 A2 Inputs)

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

section Reference
open Cert.ReferenceIdeal

variable (m' : (ℓ : Loc nD τ sig) → Buf (Elt Ideal) ℓ) (c : Dev nD)

abbrev rbuf (b : Ref sig .tc) : Buf (Elt Ideal) ((c.tc : Thread nD τ).loc b) := m' ((c.tc : Thread nD τ).loc b)

def refInputs : Inputs :=
  ⟨A2 (rbuf m' c main_arg0), A1 (rbuf m' c main_arg1), A1 (rbuf m' c main_arg2), A1 (rbuf m' c main_arg3),
   A2 (rbuf m' c main_arg4), A1 (rbuf m' c main_arg5), A2 (rbuf m' c main_arg6), A1 (rbuf m' c main_arg7),
   A2 (rbuf m' c main_arg8), A1 (rbuf m' c main_arg9), A2 (rbuf m' c main_arg10), A1 (rbuf m' c main_arg11),
   A2 (rbuf m' c main_arg12), A2 (rbuf m' c main_arg13), A2 (rbuf m' c main_arg14)⟩

end Reference

/-- Both programs end at the specification's functions of the launch memory; the kernel's masks are the reference's on the domain. -/
theorem algebraic : Cert.algebraic_KernelIdeal_ReferenceIdeal := by
  intro m g m' g' hpre hagree
  have hdom : ∀ c, Cert.Spec.Dom (inputsOf m c) := fun c =>
    Cert.PreFacts.dom_of_pre _ _ _ _ _ _ _ _ _ _ _ _ _ _ _ (hpre c)
  have hmask := fun c => Cert.Spec.masks_eq (inputsOf m c) (hdom c)
  have hI : ∀ c, refInputs m' c = inputsOf m c := fun c => by
    obtain ⟨h0, h1, h2, h3, h4, h5, h6, h7, h8, h9, h10, h11, h12, h13, h14⟩ := hagree c
    unfold refInputs rbuf Cert.KernelIdeal.HandValue.inputsOf
    rw [h0, h1, h2, h3, h4, h5, h6, h7, h8, h9, h10, h11, h12, h13, h14]
  refine ⟨fun c (j : Cert.KernelIdeal.S8192x1000.Idx) => (inputsOf m c).out (j 0) (j 1),
    fun c (j : Cert.KernelIdeal.S256.Idx) => (inputsOf m c).hm0R (j 0),
    fun c (j : Cert.KernelIdeal.S128.Idx) => (inputsOf m c).hm1R (j 0),
    fun c (j : Cert.KernelIdeal.S64.Idx) => (inputsOf m c).hm2R (j 0), ?_, ?_⟩
  · refine (θ_run Cert.KernelIdeal.defs _ _).mono (fun r h c => ?_) (run_all (F := Ideal) m g)
    exact ⟨(h c _ (mem_uc Cert.KernelIdeal.main_v19 (by decide))).trans (W8_v19 m g c),
      (h c _ (mem_uc Cert.KernelIdeal.main_v5 (by decide))).trans
        ((W8_v5 m g c).trans (congrArg (fun f (j : Cert.KernelIdeal.S256.Idx) => f (j 0)) (hmask c).1)),
      (h c _ (mem_uc Cert.KernelIdeal.main_v11 (by decide))).trans
        ((W8_v11 m g c).trans (congrArg (fun f (j : Cert.KernelIdeal.S128.Idx) => f (j 0)) (hmask c).2.1)),
      (h c _ (mem_uc Cert.KernelIdeal.main_v17 (by decide))).trans
        ((W8_v17 m g c).trans (congrArg (fun f (j : Cert.KernelIdeal.S64.Idx) => f (j 0)) (hmask c).2.2)),
      kept_args m g h c⟩
  · refine (θ_run Cert.ReferenceIdeal.defs _ _).mono (fun r h c => ?_) (Cert.ReferenceIdeal.Value.run (F := Ideal) m' g')
    exact ⟨(h c).1.trans ((Cert.ReferenceIdeal.Read.val_main_v128_eq _ _ _ _ _ _ _ _ _ _ _ _).trans
        ((Cert.RefValue.out_eq _ _ _ _ _ _ _ _ _ _ _ _ _ _ _).trans
          (congrArg (fun (I : Inputs) (j : Cert.ReferenceIdeal.S8192x1000.Idx) => I.out (j 0) (j 1)) (hI c)))),
      (h c).2.1.trans ((Cert.ReferenceIdeal.Read.val_main_v31_eq m' c).trans
        ((Cert.RefValue.hm0_eq _ _ _ _ _ _ _ _ _ _ _ _ _ _ _).trans (congrArg (fun (I : Inputs) (j : Cert.ReferenceIdeal.S256.Idx) => I.hm0R (j 0)) (hI c)))),
      (h c).2.2.1.trans ((Cert.ReferenceIdeal.Read.val_main_v72_eq m' c).trans
        ((Cert.RefValue.hm1_eq _ _ _ _ _ _ _ _ _ _ _ _ _ _ _).trans (congrArg (fun (I : Inputs) (j : Cert.ReferenceIdeal.S128.Idx) => I.hm1R (j 0)) (hI c)))),
      (h c).2.2.2.1.trans ((Cert.ReferenceIdeal.Read.val_main_v113_eq m' c).trans
        ((Cert.RefValue.hm2_eq _ _ _ _ _ _ _ _ _ _ _ _ _ _ _).trans (congrArg (fun (I : Inputs) (j : Cert.ReferenceIdeal.S64.Idx) => I.hm2R (j 0)) (hI c)))),
      (h c).2.2.2.2⟩

end Cert.Proof.Claims

end
-- ==== Proof.lean ====
import proofs.«131279_j13907104104967_1_alg».proof.Defs
import proofs.«131279_j13907104104967_1_alg».proof.Proof.Gen.Kernel
import proofs.«131279_j13907104104967_1_alg».proof.Proof.Gen.KernelIdeal
import proofs.«131279_j13907104104967_1_alg».proof.Proof.Gen.ReferenceIdeal
import proofs.«131279_j13907104104967_1_alg».proof.Proof.Gen.Pre_finite_inputs
import proofs.«131279_j13907104104967_1_alg».proof.Proof.Gen.ReferenceIdeal.Run
import proofs.«131279_j13907104104967_1_alg».proof.Proof.Gen.ReferenceIdeal.Read
import proofs.«131279_j13907104104967_1_alg».proof.Proof.Claims

noncomputable section

namespace Cert.Proof

/-- Three Hebbian layers and a linear layer, tiled over the batch, against the same network written whole: the layers agree tile by
    tile, a sum over the batch is the sum of its tile sums, and the two forms of the Hebbian score agree by distributivity where every
    input is finite and every row norm is positive. -/
theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
